-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S8192 : Shape := ⟨1, ![8192]⟩
abbrev S6 : Shape := ⟨1, ![6]⟩
abbrev S64x64 : Shape := ⟨2, ![64, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S6 : S_.BroadcastsInDim S6 (![] : Fin 0 → Fin S6.rank)
  reducesTo_S6_S_d0 : S6.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S8192x64 .f32) (main_arg1 : FVec F S8192x8192 .f32) (main_arg2 : FVec F S8192 .f32) (main_arg3 : FVec F S6 .f32) (main_arg4 : FVec F S64x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_v13 main_v16
-- ==== Kernel.lean ====
abbrev S8192x64 : Shape := ⟨2, ![8192, 64]⟩
abbrev S8192x8192 : Shape := ⟨2, ![8192, 8192]⟩
abbrev S8192 : Shape := ⟨1, ![8192]⟩
abbrev S6 : Shape := ⟨1, ![6]⟩
abbrev S64x64 : Shape := ⟨2, ![64, 64]⟩
abbrev S2048x64 : Shape := ⟨2, ![2048, 64]⟩
abbrev S1 : Shape := ⟨1, ![1]⟩
abbrev S_ : Shape := ⟨0, ![]⟩
abbrev S1024x1024 : Shape := ⟨2, ![1024, 1024]⟩
abbrev S1024x64 : Shape := ⟨2, ![1024, 64]⟩
abbrev S8192x1 : Shape := ⟨2, ![8192, 1]⟩

abbrev nBuf : Space → Nat
  | .hbm => 41
  | .vmem => 33
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192, .f32⟩
  | .hbm, ⟨3, _⟩ => ⟨S6, .f32⟩
  | .hbm, ⟨4, _⟩ => ⟨S64x64, .f32⟩
  | .hbm, ⟨5, _⟩ => ⟨S8192x64, .f32⟩
  | .hbm, ⟨6, _⟩ => ⟨S1, .f32⟩
  | .hbm, ⟨7, _⟩ => ⟨S_, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S1, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S1, .f32⟩
  | .hbm, ⟨18, _⟩ => ⟨S_, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x1, .f32⟩
  | .hbm, ⟨23, _⟩ => ⟨S8192x64, .f32⟩
  | .hbm, ⟨24, _⟩ => ⟨S8192x64, .f32⟩
  | .hbm, ⟨25, _⟩ => ⟨S1, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S1, .f32⟩
  | .hbm, ⟨31, _⟩ => ⟨S_, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S1, .f32⟩
  | .hbm, ⟨37, _⟩ => ⟨S_, .f32⟩
  | .hbm, ⟨38, _⟩ => ⟨S8192x64, .f32⟩
  | .hbm, ⟨39, _⟩ => ⟨S8192x64, .f32⟩
  | .hbm, ⟨40, _⟩ => ⟨S8192x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S1024x1024, .f32⟩
  | .local _ .vmem, ⟨6, _⟩ => ⟨S1024x1024, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x1024, .f32⟩
  | .local _ .vmem, ⟨13, _⟩ => ⟨S1024x1024, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x1024, .f32⟩
  | .local _ .vmem, ⟨20, _⟩ => ⟨S1024x1024, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x1024, .f32⟩
  | .local _ .vmem, ⟨27, _⟩ => ⟨S1024x1024, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S6_S1_3 : S6.Slices ![3] S1
  shapeCasts_S1_S_ : S1.ShapeCasts S_
  bcast_S_S8192x64 : S_.BroadcastsInDim S8192x64 (![] : Fin 0 → Fin S8192x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  slices_S6_S1_4 : S6.Slices ![4] S1
  slices_S6_S1_5 : S6.Slices ![5] S1
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  slices_S6_S1_0 : S6.Slices ![0] S1
  slices_S6_S1_1 : S6.Slices ![1] S1
  slices_S6_S1_2 : S6.Slices ![2] S1
  dot_S2048x64_S64x64_S2048x64_1_0_0_1_n_n_wf : DotDims.WF S2048x64 S64x64 S2048x64 [1] [0] [0] [1] [] []
  dot_S1024x1024_S1024x64_S1024x64_0_0_1_1_n_n_wf : DotDims.WF S1024x1024 S1024x64 S1024x64 [0] [0] [1] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S8192x64.size a
  hwx3_2 : ∀ i : grid3.Coords, EltTy.bits .f32 = 32 ∨ (Rect.block (s := S8192x64) S1024x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .f32 = 32 ∨ (Rect.block (s := S8192x8192) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S8192x64.size a
  hwx4_2 : ∀ i : grid4.Coords, EltTy.bits .f32 = 32 ∨ (Rect.block (s := S8192x64) S1024x64.size (cc4_transform_2 i) (hinb4_2 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg1) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1024x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S8192 : Shape := ⟨1, ![8192]⟩
abbrev S6 : Shape := ⟨1, ![6]⟩
abbrev S64x64 : Shape := ⟨2, ![64, 64]⟩
abbrev S1 : Shape := ⟨1, ![1]⟩
abbrev S_ : Shape := ⟨0, ![]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192, .f32⟩
  | .hbm, ⟨3, _⟩ => ⟨S6, .f32⟩
  | .hbm, ⟨4, _⟩ => ⟨S64x64, .f32⟩
  | .hbm, ⟨5, _⟩ => ⟨S8192x64, .f32⟩
  | .hbm, ⟨6, _⟩ => ⟨S1, .f32⟩
  | .hbm, ⟨7, _⟩ => ⟨S_, .f32⟩
  | .hbm, ⟨8, _⟩ => ⟨S8192x64, .f32⟩
  | .hbm, ⟨9, _⟩ => ⟨S8192x64, .f32⟩
  | .hbm, ⟨10, _⟩ => ⟨S8192x8192, .f32⟩
  | .hbm, ⟨11, _⟩ => ⟨S8192x64, .f32⟩
  | .hbm, ⟨12, _⟩ => ⟨S1, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x8192, .f32⟩
  | .hbm, ⟨18, _⟩ => ⟨S8192x64, .f32⟩
  | .hbm, ⟨19, _⟩ => ⟨S1, .f32⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S1, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S1, .f32⟩
  | .hbm, ⟨33, _⟩ => ⟨S_, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S1, .f32⟩
  | .hbm, ⟨39, _⟩ => ⟨S_, .f32⟩
  | .hbm, ⟨40, _⟩ => ⟨S8192x64, .f32⟩
  | .hbm, ⟨41, _⟩ => ⟨S8192x64, .f32⟩
  | .hbm, ⟨42, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  slices_S6_S1_3 : S6.Slices ![3] S1
  shapeCasts_S1_S_ : S1.ShapeCasts S_
  bcast_S_S8192x64 : S_.BroadcastsInDim S8192x64 (![] : Fin 0 → Fin S8192x64.rank)
  transposes_S8192x8192_S8192x8192_1_0 : S8192x8192.Transposes [1, 0] S8192x8192
  slices_S6_S1_4 : S6.Slices ![4] S1
  slices_S6_S1_5 : S6.Slices ![5] S1
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  slices_S6_S1_0 : S6.Slices ![0] S1
  slices_S6_S1_1 : S6.Slices ![1] S1
  slices_S6_S1_2 : S6.Slices ![2] S1
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KB.Reg0.lean ====
import proofs.«114230_j63153199120588_1_alg».proof.Proof.Gen.Kernel.Launch
import proofs.«114230_j63153199120588_1_alg».proof.Proof.Gen.Kernel.Skeleton
import proofs.«114230_j63153199120588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0

def out0_2 (x0 : Vec F S2048x64 .f32) (x1 : Vec F S64x64 .f32) : Vec F S2048x64 .f32 :=
  View.canon [⟨r0_0, k0_pay1 (View.ld x0 r0_0) (View.ld x1 r0_1)⟩]

theorem cover0_2 (p0 : Vec F S2048x64 .f32) (y : S2048x64.Idx) :
    ∃ pc ∈ ([⟨r0_0, p0⟩] : List (View.Piece (Elt F) S2048x64 .f32)), y ∈ pc.1.set :=
  View.cover_of_tiled [⟨r0_0, p0⟩] S2048x64.size (by rfl) y

set_option maxHeartbeats 1000000 in

theorem sound_kernel0 (c : Dev nD) (E : Set ℕ) (i : grid0.Coords)
    (arg0 : Memref sig .tc .vmem S2048x64 .f32) (harg0 : arg0.IsWhole)
    (arg1 : Memref sig .tc .vmem S64x64 .f32) (harg1 : arg1.IsWhole)
    (arg2 : Memref sig .tc .vmem S2048x64 .f32) (harg2 : arg2.IsWhole)
    (x0 : Vec F S2048x64 .f32) (x1 : Vec F S64x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__gemm_kernel i arg0 harg0 arg1 harg1 arg2 harg2) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  dsimp only [dat0]; exact .rfl
theorem hout0 (c : Dev nD) : (dat0 V c).Φ (Fin.last cfg0.N) ⊢ (Pipeline.ΦA spec0 c : sProp 𝕄) := by
  dsimp only [dat0]; exact .rfl

end Cert.Kernel.Fr

end
-- ==== Proof.KB.Reg1Runs.lean ====
import proofs.«114230_j63153199120588_1_alg».proof.Proof.Gen.Kernel.Launch
import proofs.«114230_j63153199120588_1_alg».proof.Proof.Gen.Kernel.Skeleton
import proofs.«114230_j63153199120588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator is reset where the second grid coordinate k is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The accumulator is copied out where k is seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S1024x64 .f32 := (Memref.whole cc1_stg2_0 : Memref sig .tc .vmem S1024x64 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev scM1_0 : Memref sig .tc .vmem S1024x64 .f32 := Memref.whole cc1_scratch0
abbrev VS1_0 : View sig .tc .vmem S1024x64 .f32 := scM1_0.view

variable (c : Dev nD) (i : grid1.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun1_A (hc0 : cond1_0 i) (hc1 : ¬cond1_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun1_B (hc0 : ¬cond1_0 i) (hc1 : ¬cond1_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun1_C (hc0 : ¬cond1_0 i) (hc1 : cond1_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KB.Reg1.lean ====
import proofs.«114230_j63153199120588_1_alg».proof.Proof.KB.Reg1Runs

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pieces

variable (c : Dev nD) (i : grid1.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover1_A_0 (hc0 : cond1_0 i) (hc1 : ¬cond1_1 i) (x0 : Vec F S1024x1024 .f32) (x1 : Vec F S1024x64 .f32) (y : S1024x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x64.size (by sl_kernel_rfl) y

/-- What a point with k = 0 leaves in the accumulator: the stored pieces read back as one block. -/
def sout1_A_0 (hc0 : cond1_0 i) (hc1 : ¬cond1_1 i) (x0 : Vec F S1024x1024 .f32) (x1 : Vec F S1024x64 .f32) : Vec F S1024x64 .f32 :=
  VS1_0.read (Elt F) (VS1_0.writes (Elt F) VS1_0.junk (kernelRun1_A c i arg2 harg2 arg3 harg3 arg4 harg4 arg5 harg5 hc0 hc1 x0 x1).2.1)

theorem scover1_B_0 (hc0 : ¬cond1_0 i) (hc1 : ¬cond1_1 i) (x0 : Vec F S1024x1024 .f32) (x1 xs0 : Vec F S1024x64 .f32) (y : S1024x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x64.size (by sl_kernel_rfl) y

def sout1_B_0 (hc0 : ¬cond1_0 i) (hc1 : ¬cond1_1 i) (x0 : Vec F S1024x1024 .f32) (x1 xs0 : Vec F S1024x64 .f32) : Vec F S1024x64 .f32 :=
  VS1_0.read (Elt F) (VS1_0.writes (Elt F) VS1_0.junk (kernelRun1_B c i arg2 harg2 arg3 harg3 arg4 harg4 arg5 harg5 hc0 hc1 x0 x1 xs0).2.1)

theorem scover1_C_0 (hc0 : ¬cond1_0 i) (hc1 : cond1_1 i) (x0 : Vec F S1024x1024 .f32) (x1 xs0 : Vec F S1024x64 .f32) (y : S1024x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x64.size (by sl_kernel_rfl) y

def sout1_C_0 (hc0 : ¬cond1_0 i) (hc1 : cond1_1 i) (x0 : Vec F S1024x1024 .f32) (x1 xs0 : Vec F S1024x64 .f32) : Vec F S1024x64 .f32 :=
  VS1_0.read (Elt F) (VS1_0.writes (Elt F) VS1_0.junk (kernelRun1_C c i arg2 harg2 arg3 harg3 arg4 harg4 arg5 harg5 hc0 hc1 x0 x1 xs0).2.1)

theorem cover1_C_2 (hc0 : ¬cond1_0 i) (hc1 : cond1_1 i) (x0 : Vec F S1024x1024 .f32) (x1 xs0 : Vec F S1024x64 .f32) (y : S1024x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x64.size (by sl_kernel_rfl) y

/-- What a point with k = 7 leaves in the output block. -/
def out1_C_2 (hc0 : ¬cond1_0 i) (hc1 : cond1_1 i) (x0 : Vec F S1024x1024 .f32) (x1 xs0 : Vec F S1024x64 .f32) : Vec F S1024x64 .f32 :=
  VO1_2.read (Elt F) (VO1_2.writes (Elt F) VO1_2.junk (kernelRun1_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Point
variable (c : Dev nD) (t : Fin cfg1.N)

/-- The three cases at grid point `t`: the accumulator afterwards (k = 0; 0 < k < 7; k = 7) and the output block at k = 7. -/
def ptA1 (h0 : t.val % 8 = 0) (h1 : ¬t.val % 8 = 7) : Vec F S1024x64 .f32 :=
  sout1_A_0 c (grid1.coords t) (ms1_0 t) (hs1_0 t) (ms1_1 t) (hs1_1 t) (ms1_2 t) (hs1_2 t) scM1_0 (Memref.isWhole_whole _) ((hcond1_0 t).mpr h0) (mt (hcond1_1 t).mp h1) (iblk1 V c 0 t) (iblk1 V c 1 t)
def ptB1 (h0 : ¬t.val % 8 = 0) (h1 : ¬t.val % 8 = 7) (xs : Vec F S1024x64 .f32) : Vec F S1024x64 .f32 :=
  sout1_B_0 c (grid1.coords t) (ms1_0 t) (hs1_0 t) (ms1_1 t) (hs1_1 t) (ms1_2 t) (hs1_2 t) scM1_0 (Memref.isWhole_whole _) (mt (hcond1_0 t).mp h0) (mt (hcond1_1 t).mp h1) (iblk1 V c 0 t) (iblk1 V c 1 t) xs
def ptC1 (h0 : ¬t.val % 8 = 0) (h1 : t.val % 8 = 7) (xs : Vec F S1024x64 .f32) : Vec F S1024x64 .f32 :=
  sout1_C_0 c (grid1.coords t) (ms1_0 t) (hs1_0 t) (ms1_1 t) (hs1_1 t) (ms1_2 t) (hs1_2 t) scM1_0 (Memref.isWhole_whole _) (mt (hcond1_0 t).mp h0) ((hcond1_1 t).mpr h1) (iblk1 V c 0 t) (iblk1 V c 1 t) xs
def ptO1 (h0 : ¬t.val % 8 = 0) (h1 : t.val % 8 = 7) (xs : Vec F S1024x64 .f32) : Vec F S1024x64 .f32 :=
  out1_C_2 c (grid1.coords t) (ms1_0 t) (hs1_0 t) (ms1_1 t) (hs1_1 t) (ms1_2 t) (hs1_2 t) scM1_0 (Memref.isWhole_whole _) (mt (hcond1_0 t).mp h0) ((hcond1_1 t).mpr h1) (iblk1 V c 0 t) (iblk1 V c 1 t) xs

end Point

/-- What the accumulator holds after grid point number `n`. -/
def accAt1 (c : Dev nD) : (n : ℕ) → n < cfg1.N → Vec F S1024x64 .f32
  | 0, hn => ptA1 V c ⟨0, hn⟩ (Nat.zero_mod _) (by show ¬0 % 8 = 7; decide)
  | n + 1, hn =>
    if h0 : (n + 1) % 8 = 0 then ptA1 V c ⟨n + 1, hn⟩ h0 (by show ¬(n + 1) % 8 = 7; omega)
    else if h1 : (n + 1) % 8 = 7 then ptC1 V c ⟨n + 1, hn⟩ h0 h1 (accAt1 c n (Nat.lt_of_succ_lt hn))
    else ptB1 V c ⟨n + 1, hn⟩ h0 h1 (accAt1 c n (Nat.lt_of_succ_lt hn))

/-- What the point before `t` left in the accumulator. -/
abbrev accPrev1 (c : Dev nD) (t : Fin cfg1.N) : Vec F S1024x64 .f32 :=
  accAt1 V c (t.val - 1) (Nat.lt_of_le_of_lt (Nat.sub_le _ _) t.isLt)

theorem accAt1_A (c : Dev nD) (t : Fin cfg1.N) (h0 : t.val % 8 = 0) (h1 : ¬t.val % 8 = 7) :
    accAt1 V c t.val t.isLt = ptA1 V c t h0 h1 := by
  obtain ⟨n, hn⟩ := t
  cases n with
  | zero => rfl
  | succ n => exact (dif_pos h0).trans rfl

theorem accAt1_B (c : Dev nD) (t : Fin cfg1.N) (h0 : ¬t.val % 8 = 0) (h1 : ¬t.val % 8 = 7) :
    accAt1 V c t.val t.isLt = ptB1 V c t h0 h1 (accPrev1 V c t) := by
  obtain ⟨n, hn⟩ := t
  cases n with
  | zero => exact absurd (Nat.zero_mod _) h0
  | succ n => exact (dif_neg h0).trans ((dif_neg h1).trans rfl)

theorem accAt1_C (c : Dev nD) (t : Fin cfg1.N) (h0 : ¬t.val % 8 = 0) (h1 : t.val % 8 = 7) :
    accAt1 V c t.val t.isLt = ptC1 V c t h0 h1 (accPrev1 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt1 (c : Dev nD) (n : ℕ) (hn : n < cfg1.N) : Vec F S1024x64 .f32 :=
  if h1 : n % 8 = 7 then ptO1 V c ⟨n, hn⟩ (by show ¬n % 8 = 0; omega) h1 (accPrev1 V c ⟨n, hn⟩)
  else VO1_2.read (Elt F) VO1_2.junk

theorem outAt1_C (c : Dev nD) (t : Fin cfg1.N) (h0 : ¬t.val % 8 = 0) (h1 : t.val % 8 = 7) :
    outAt1 V c t.val t.isLt = ptO1 V c t h0 h1 (accPrev1 V c t) :=
  dif_pos h1

/-- The invariant between points: after point `n` the accumulator holds `accAt1 n`; before the first point, anything. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) scM1_0 fullShare (accAt1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- The invariant at any point implies the one that says nothing of the accumulator's contents. -/
theorem PhiS1_forget (c : Dev nD) (n : ℕ) (h : n ≤ cfg1.N) : PhiS1 V c n h ⊢ (Pipeline.ΦA spec1 c : sProp 𝕄) := by
  cases n with
  | zero => exact .rfl
  | succ n =>
    rw [PhiS1_succ, PhiA1_eq]
    iintro ⟨⟨HS0, Hb⟩, Hg⟩
    isplitl [HS0 Hb]
    · isplitl [HS0]
      · iexists _; iexact HS0
      iexact Hb
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t.val t.isLt
  Φ t := PhiS1 V c t.val (Nat.le_of_lt_succ t.isLt)
  q _ := fullShare
  owed _ := 0

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point keeps the invariant: k decides the case, and at k = 0 what the accumulator held is not used. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % 8 = 0
  · have h1 : ¬t.val % 8 = 7 := by omega
    rw [Dat.leavesExact_idle (dat1 V c) 2 t (idleAt1_2 t (mt (hcond1_1 t).mp h1)) (noFlush1_2 t (mt (hcond1_1 t).mp h1))]
    rw [accAt1_A V c t h0 h1]
    unfold ptA1 sout1_A_0; (try dsimp only)
    refine (sep_mono ((PhiS1_forget V c _ _).trans (PhiA1_eq c).le) .rfl).trans ?_
    iintro ⟨⟨⟨HS0, Hb⟩, Hg⟩, Ho, ⟨%d0, H0⟩, ⟨%d1, H1⟩, ⟨%d2, H2⟩⟩
    iapply ((kernelRun1_A c (grid1.coords t) _ _ _ _ _ _ _ _ ((hcond1_0 t).mpr h0) (mt (hcond1_1 t).mp h1) (iblk1 V c 0 t) (iblk1 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover1_A_0 c _ _ _ _ _ _ _ _ _ _ _ _ _)
    iexists _; iexact H2
  · have hz : t.val ≠ 0 := fun h => h0 (by rw [h])
    rw [PhiS1_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt1_C V c t h0 h1, outAt1_C V c t h0 h1]
      unfold ptO1 ptC1 out1_C_2 sout1_C_0; (try dsimp only)
      iintro ⟨⟨⟨HS0, Hb⟩, Hg⟩, Ho, ⟨%d0, H0⟩, ⟨%d1, H1⟩, ⟨%d2, H2⟩⟩
      iapply ((kernelRun1_C c (grid1.coords t) _ _ _ _ _ _ _ _ (mt (hcond1_0 t).mp h0) ((hcond1_1 t).mpr h1) (iblk1 V c 0 t) (iblk1 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover1_C_0 c _ _ _ _ _ _ _ _ _ _ _ _ _ _)
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (mt (hcond1_1 t).mp h1)) (noFlush1_2 t (mt (hcond1_1 t).mp h1))]
      rw [accAt1_B V c t h0 h1]
      unfold ptB1 sout1_B_0; (try dsimp only)
      iintro ⟨⟨⟨HS0, Hb⟩, Hg⟩, Ho, ⟨%d0, H0⟩, ⟨%d1, H1⟩, ⟨%d2, H2⟩⟩
      iapply ((kernelRun1_B c (grid1.coords t) _ _ _ _ _ _ _ _ (mt (hcond1_0 t).mp h0) (mt (hcond1_1 t).mp h1) (iblk1 V c 0 t) (iblk1 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover1_B_0 c _ _ _ _ _ _ _ _ _ _ _ _ _ _)
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]

theorem hout1 (c : Dev nD) : (dat1 V c).Φ (Fin.last cfg1.N) ⊢ (Pipeline.ΦA spec1 c : sProp 𝕄) :=
  PhiS1_forget V c (Fin.last cfg1.N).val (Nat.le_of_lt_succ (Fin.last cfg1.N).isLt)

end

end Cert.Kernel.Fr

end
-- ==== Proof.KB.Reg2Runs.lean ====
import proofs.«114230_j63153199120588_1_alg».proof.Proof.Gen.Kernel.Launch
import proofs.«114230_j63153199120588_1_alg».proof.Proof.Gen.Kernel.Skeleton
import proofs.«114230_j63153199120588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator is reset where the second grid coordinate k is zero. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The accumulator is copied out where k is seven. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev VO2_2 : View sig .tc .vmem S1024x64 .f32 := (Memref.whole cc2_stg2_0 : Memref sig .tc .vmem S1024x64 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
abbrev scM2_0 : Memref sig .tc .vmem S1024x64 .f32 := Memref.whole cc2_scratch0
abbrev VS2_0 : View sig .tc .vmem S1024x64 .f32 := scM2_0.view

variable (c : Dev nD) (i : grid2.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun2_A (hc0 : cond2_0 i) (hc1 : ¬cond2_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun2_B (hc0 : ¬cond2_0 i) (hc1 : ¬cond2_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun2_C (hc0 : ¬cond2_0 i) (hc1 : cond2_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KB.Reg2.lean ====
import proofs.«114230_j63153199120588_1_alg».proof.Proof.KB.Reg2Runs

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pieces

variable (c : Dev nD) (i : grid2.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover2_A_0 (hc0 : cond2_0 i) (hc1 : ¬cond2_1 i) (x0 : Vec F S1024x1024 .f32) (x1 : Vec F S1024x64 .f32) (y : S1024x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x64.size (by sl_kernel_rfl) y

/-- What a point with k = 0 leaves in the accumulator: the stored pieces read back as one block. -/
def sout2_A_0 (hc0 : cond2_0 i) (hc1 : ¬cond2_1 i) (x0 : Vec F S1024x1024 .f32) (x1 : Vec F S1024x64 .f32) : Vec F S1024x64 .f32 :=
  VS2_0.read (Elt F) (VS2_0.writes (Elt F) VS2_0.junk (kernelRun2_A c i arg2 harg2 arg3 harg3 arg4 harg4 arg5 harg5 hc0 hc1 x0 x1).2.1)

theorem scover2_B_0 (hc0 : ¬cond2_0 i) (hc1 : ¬cond2_1 i) (x0 : Vec F S1024x1024 .f32) (x1 xs0 : Vec F S1024x64 .f32) (y : S1024x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x64.size (by sl_kernel_rfl) y

def sout2_B_0 (hc0 : ¬cond2_0 i) (hc1 : ¬cond2_1 i) (x0 : Vec F S1024x1024 .f32) (x1 xs0 : Vec F S1024x64 .f32) : Vec F S1024x64 .f32 :=
  VS2_0.read (Elt F) (VS2_0.writes (Elt F) VS2_0.junk (kernelRun2_B c i arg2 harg2 arg3 harg3 arg4 harg4 arg5 harg5 hc0 hc1 x0 x1 xs0).2.1)

theorem scover2_C_0 (hc0 : ¬cond2_0 i) (hc1 : cond2_1 i) (x0 : Vec F S1024x1024 .f32) (x1 xs0 : Vec F S1024x64 .f32) (y : S1024x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x64.size (by sl_kernel_rfl) y

def sout2_C_0 (hc0 : ¬cond2_0 i) (hc1 : cond2_1 i) (x0 : Vec F S1024x1024 .f32) (x1 xs0 : Vec F S1024x64 .f32) : Vec F S1024x64 .f32 :=
  VS2_0.read (Elt F) (VS2_0.writes (Elt F) VS2_0.junk (kernelRun2_C c i arg2 harg2 arg3 harg3 arg4 harg4 arg5 harg5 hc0 hc1 x0 x1 xs0).2.1)

theorem cover2_C_2 (hc0 : ¬cond2_0 i) (hc1 : cond2_1 i) (x0 : Vec F S1024x1024 .f32) (x1 xs0 : Vec F S1024x64 .f32) (y : S1024x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x64.size (by sl_kernel_rfl) y

/-- What a point with k = 7 leaves in the output block. -/
def out2_C_2 (hc0 : ¬cond2_0 i) (hc1 : cond2_1 i) (x0 : Vec F S1024x1024 .f32) (x1 xs0 : Vec F S1024x64 .f32) : Vec F S1024x64 .f32 :=
  VO2_2.read (Elt F) (VO2_2.writes (Elt F) VO2_2.junk (kernelRun2_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section Point
variable (c : Dev nD) (t : Fin cfg2.N)

/-- The three cases at grid point `t`: the accumulator afterwards (k = 0; 0 < k < 7; k = 7) and the output block at k = 7. -/
def ptA2 (h0 : t.val % 8 = 0) (h1 : ¬t.val % 8 = 7) : Vec F S1024x64 .f32 :=
  sout2_A_0 c (grid2.coords t) (ms2_0 t) (hs2_0 t) (ms2_1 t) (hs2_1 t) (ms2_2 t) (hs2_2 t) scM2_0 (Memref.isWhole_whole _) ((hcond2_0 t).mpr h0) (mt (hcond2_1 t).mp h1) (iblk2 V c 0 t) (iblk2 V c 1 t)
def ptB2 (h0 : ¬t.val % 8 = 0) (h1 : ¬t.val % 8 = 7) (xs : Vec F S1024x64 .f32) : Vec F S1024x64 .f32 :=
  sout2_B_0 c (grid2.coords t) (ms2_0 t) (hs2_0 t) (ms2_1 t) (hs2_1 t) (ms2_2 t) (hs2_2 t) scM2_0 (Memref.isWhole_whole _) (mt (hcond2_0 t).mp h0) (mt (hcond2_1 t).mp h1) (iblk2 V c 0 t) (iblk2 V c 1 t) xs
def ptC2 (h0 : ¬t.val % 8 = 0) (h1 : t.val % 8 = 7) (xs : Vec F S1024x64 .f32) : Vec F S1024x64 .f32 :=
  sout2_C_0 c (grid2.coords t) (ms2_0 t) (hs2_0 t) (ms2_1 t) (hs2_1 t) (ms2_2 t) (hs2_2 t) scM2_0 (Memref.isWhole_whole _) (mt (hcond2_0 t).mp h0) ((hcond2_1 t).mpr h1) (iblk2 V c 0 t) (iblk2 V c 1 t) xs
def ptO2 (h0 : ¬t.val % 8 = 0) (h1 : t.val % 8 = 7) (xs : Vec F S1024x64 .f32) : Vec F S1024x64 .f32 :=
  out2_C_2 c (grid2.coords t) (ms2_0 t) (hs2_0 t) (ms2_1 t) (hs2_1 t) (ms2_2 t) (hs2_2 t) scM2_0 (Memref.isWhole_whole _) (mt (hcond2_0 t).mp h0) ((hcond2_1 t).mpr h1) (iblk2 V c 0 t) (iblk2 V c 1 t) xs

end Point

/-- What the accumulator holds after grid point number `n`. -/
def accAt2 (c : Dev nD) : (n : ℕ) → n < cfg2.N → Vec F S1024x64 .f32
  | 0, hn => ptA2 V c ⟨0, hn⟩ (Nat.zero_mod _) (by show ¬0 % 8 = 7; decide)
  | n + 1, hn =>
    if h0 : (n + 1) % 8 = 0 then ptA2 V c ⟨n + 1, hn⟩ h0 (by show ¬(n + 1) % 8 = 7; omega)
    else if h1 : (n + 1) % 8 = 7 then ptC2 V c ⟨n + 1, hn⟩ h0 h1 (accAt2 c n (Nat.lt_of_succ_lt hn))
    else ptB2 V c ⟨n + 1, hn⟩ h0 h1 (accAt2 c n (Nat.lt_of_succ_lt hn))

/-- What the point before `t` left in the accumulator. -/
abbrev accPrev2 (c : Dev nD) (t : Fin cfg2.N) : Vec F S1024x64 .f32 :=
  accAt2 V c (t.val - 1) (Nat.lt_of_le_of_lt (Nat.sub_le _ _) t.isLt)

theorem accAt2_A (c : Dev nD) (t : Fin cfg2.N) (h0 : t.val % 8 = 0) (h1 : ¬t.val % 8 = 7) :
    accAt2 V c t.val t.isLt = ptA2 V c t h0 h1 := by
  obtain ⟨n, hn⟩ := t
  cases n with
  | zero => rfl
  | succ n => exact (dif_pos h0).trans rfl

theorem accAt2_B (c : Dev nD) (t : Fin cfg2.N) (h0 : ¬t.val % 8 = 0) (h1 : ¬t.val % 8 = 7) :
    accAt2 V c t.val t.isLt = ptB2 V c t h0 h1 (accPrev2 V c t) := by
  obtain ⟨n, hn⟩ := t
  cases n with
  | zero => exact absurd (Nat.zero_mod _) h0
  | succ n => exact (dif_neg h0).trans ((dif_neg h1).trans rfl)

theorem accAt2_C (c : Dev nD) (t : Fin cfg2.N) (h0 : ¬t.val % 8 = 0) (h1 : t.val % 8 = 7) :
    accAt2 V c t.val t.isLt = ptC2 V c t h0 h1 (accPrev2 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt2 (c : Dev nD) (n : ℕ) (hn : n < cfg2.N) : Vec F S1024x64 .f32 :=
  if h1 : n % 8 = 7 then ptO2 V c ⟨n, hn⟩ (by show ¬n % 8 = 0; omega) h1 (accPrev2 V c ⟨n, hn⟩)
  else VO2_2.read (Elt F) VO2_2.junk

theorem outAt2_C (c : Dev nD) (t : Fin cfg2.N) (h0 : ¬t.val % 8 = 0) (h1 : t.val % 8 = 7) :
    outAt2 V c t.val t.isLt = ptO2 V c t h0 h1 (accPrev2 V c t) :=
  dif_pos h1

/-- The invariant between points: after point `n` the accumulator holds `accAt2 n`; before the first point, anything. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_succ (c : Dev nD) (n : ℕ) (hn : n < cfg2.N) :
    PhiS2 V c (n + 1) hn = iprop(iprop(owns (c : Thread nD τ) scM2_0 fullShare (accAt2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- The invariant at any point implies the one that says nothing of the accumulator's contents. -/
theorem PhiS2_forget (c : Dev nD) (n : ℕ) (h : n ≤ cfg2.N) : PhiS2 V c n h ⊢ (Pipeline.ΦA spec2 c : sProp 𝕄) := by
  cases n with
  | zero => exact .rfl
  | succ n =>
    rw [PhiS2_succ, PhiA2_eq]
    iintro ⟨⟨HS0, Hb⟩, Hg⟩
    isplitl [HS0 Hb]
    · isplitl [HS0]
      · iexists _; iexact HS0
      iexact Hb
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t.val t.isLt
  Φ t := PhiS2 V c t.val (Nat.le_of_lt_succ t.isLt)
  q _ := fullShare
  owed _ := 0

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point keeps the invariant: k decides the case, and at k = 0 what the accumulator held is not used. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [PhiS2_castSucc V c t]
  by_cases h0 : t.val % 8 = 0
  · have h1 : ¬t.val % 8 = 7 := by omega
    rw [Dat.leavesExact_idle (dat2 V c) 2 t (idleAt2_2 t (mt (hcond2_1 t).mp h1)) (noFlush2_2 t (mt (hcond2_1 t).mp h1))]
    rw [accAt2_A V c t h0 h1]
    unfold ptA2 sout2_A_0; (try dsimp only)
    refine (sep_mono ((PhiS2_forget V c _ _).trans (PhiA2_eq c).le) .rfl).trans ?_
    iintro ⟨⟨⟨HS0, Hb⟩, Hg⟩, Ho, ⟨%d0, H0⟩, ⟨%d1, H1⟩, ⟨%d2, H2⟩⟩
    iapply ((kernelRun2_A c (grid2.coords t) _ _ _ _ _ _ _ _ ((hcond2_0 t).mpr h0) (mt (hcond2_1 t).mp h1) (iblk2 V c 0 t) (iblk2 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover2_A_0 c _ _ _ _ _ _ _ _ _ _ _ _ _)
    iexists _; iexact H2
  · have hz : t.val ≠ 0 := fun h => h0 (by rw [h])
    rw [PhiS2_pos V c _ _ hz]
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [accAt2_C V c t h0 h1, outAt2_C V c t h0 h1]
      unfold ptO2 ptC2 out2_C_2 sout2_C_0; (try dsimp only)
      iintro ⟨⟨⟨HS0, Hb⟩, Hg⟩, Ho, ⟨%d0, H0⟩, ⟨%d1, H1⟩, ⟨%d2, H2⟩⟩
      iapply ((kernelRun2_C c (grid2.coords t) _ _ _ _ _ _ _ _ (mt (hcond2_0 t).mp h0) ((hcond2_1 t).mpr h1) (iblk2 V c 0 t) (iblk2 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover2_C_0 c _ _ _ _ _ _ _ _ _ _ _ _ _ _)
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (mt (hcond2_1 t).mp h1)) (noFlush2_2 t (mt (hcond2_1 t).mp h1))]
      rw [accAt2_B V c t h0 h1]
      unfold ptB2 sout2_B_0; (try dsimp only)
      iintro ⟨⟨⟨HS0, Hb⟩, Hg⟩, Ho, ⟨%d0, H0⟩, ⟨%d1, H1⟩, ⟨%d2, H2⟩⟩
      iapply ((kernelRun2_B c (grid2.coords t) _ _ _ _ _ _ _ _ (mt (hcond2_0 t).mp h0) (mt (hcond2_1 t).mp h1) (iblk2 V c 0 t) (iblk2 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover2_B_0 c _ _ _ _ _ _ _ _ _ _ _ _ _ _)
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = Pipeline.ΦA spec2 c from rfl]

theorem hout2 (c : Dev nD) : (dat2 V c).Φ (Fin.last cfg2.N) ⊢ (Pipeline.ΦA spec2 c : sProp 𝕄) :=
  PhiS2_forget V c (Fin.last cfg2.N).val (Nat.le_of_lt_succ (Fin.last cfg2.N).isLt)

end

end Cert.Kernel.Fr

end
-- ==== Proof.KB.Reg3Runs.lean ====
import proofs.«114230_j63153199120588_1_alg».proof.Proof.Gen.Kernel.Launch
import proofs.«114230_j63153199120588_1_alg».proof.Proof.Gen.Kernel.Skeleton
import proofs.«114230_j63153199120588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator is reset where the second grid coordinate k is zero. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The accumulator is copied out where k is seven. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev VO3_2 : View sig .tc .vmem S1024x64 .f32 := (Memref.whole cc3_stg2_0 : Memref sig .tc .vmem S1024x64 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x64 .f32 := win3_2.stage (cfg3.slots t 2)
abbrev hs3_2 (t : Fin cfg3.N) : (ms3_2 t).IsWhole := hstage3_2 ((cfg3.slots t 2).cast nbuf3_2)
abbrev scM3_0 : Memref sig .tc .vmem S1024x64 .f32 := Memref.whole cc3_scratch0
abbrev VS3_0 : View sig .tc .vmem S1024x64 .f32 := scM3_0.view

variable (c : Dev nD) (i : grid3.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun3_A (hc0 : cond3_0 i) (hc1 : ¬cond3_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun3_B (hc0 : ¬cond3_0 i) (hc1 : ¬cond3_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun3_C (hc0 : ¬cond3_0 i) (hc1 : cond3_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KB.Reg3.lean ====
import proofs.«114230_j63153199120588_1_alg».proof.Proof.KB.Reg3Runs

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pieces

variable (c : Dev nD) (i : grid3.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover3_A_0 (hc0 : cond3_0 i) (hc1 : ¬cond3_1 i) (x0 : Vec F S1024x1024 .f32) (x1 : Vec F S1024x64 .f32) (y : S1024x64.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x64.size (by sl_kernel_rfl) y

/-- What a point with k = 0 leaves in the accumulator: the stored pieces read back as one block. -/
def sout3_A_0 (hc0 : cond3_0 i) (hc1 : ¬cond3_1 i) (x0 : Vec F S1024x1024 .f32) (x1 : Vec F S1024x64 .f32) : Vec F S1024x64 .f32 :=
  VS3_0.read (Elt F) (VS3_0.writes (Elt F) VS3_0.junk (kernelRun3_A c i arg2 harg2 arg3 harg3 arg4 harg4 arg5 harg5 hc0 hc1 x0 x1).2.1)

theorem scover3_B_0 (hc0 : ¬cond3_0 i) (hc1 : ¬cond3_1 i) (x0 : Vec F S1024x1024 .f32) (x1 xs0 : Vec F S1024x64 .f32) (y : S1024x64.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x64.size (by sl_kernel_rfl) y

def sout3_B_0 (hc0 : ¬cond3_0 i) (hc1 : ¬cond3_1 i) (x0 : Vec F S1024x1024 .f32) (x1 xs0 : Vec F S1024x64 .f32) : Vec F S1024x64 .f32 :=
  VS3_0.read (Elt F) (VS3_0.writes (Elt F) VS3_0.junk (kernelRun3_B c i arg2 harg2 arg3 harg3 arg4 harg4 arg5 harg5 hc0 hc1 x0 x1 xs0).2.1)

theorem scover3_C_0 (hc0 : ¬cond3_0 i) (hc1 : cond3_1 i) (x0 : Vec F S1024x1024 .f32) (x1 xs0 : Vec F S1024x64 .f32) (y : S1024x64.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x64.size (by sl_kernel_rfl) y

def sout3_C_0 (hc0 : ¬cond3_0 i) (hc1 : cond3_1 i) (x0 : Vec F S1024x1024 .f32) (x1 xs0 : Vec F S1024x64 .f32) : Vec F S1024x64 .f32 :=
  VS3_0.read (Elt F) (VS3_0.writes (Elt F) VS3_0.junk (kernelRun3_C c i arg2 harg2 arg3 harg3 arg4 harg4 arg5 harg5 hc0 hc1 x0 x1 xs0).2.1)

theorem cover3_C_2 (hc0 : ¬cond3_0 i) (hc1 : cond3_1 i) (x0 : Vec F S1024x1024 .f32) (x1 xs0 : Vec F S1024x64 .f32) (y : S1024x64.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x64.size (by sl_kernel_rfl) y

/-- What a point with k = 7 leaves in the output block. -/
def out3_C_2 (hc0 : ¬cond3_0 i) (hc1 : cond3_1 i) (x0 : Vec F S1024x1024 .f32) (x1 xs0 : Vec F S1024x64 .f32) : Vec F S1024x64 .f32 :=
  VO3_2.read (Elt F) (VO3_2.writes (Elt F) VO3_2.junk (kernelRun3_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section Point
variable (c : Dev nD) (t : Fin cfg3.N)

/-- The three cases at grid point `t`: the accumulator afterwards (k = 0; 0 < k < 7; k = 7) and the output block at k = 7. -/
def ptA3 (h0 : t.val % 8 = 0) (h1 : ¬t.val % 8 = 7) : Vec F S1024x64 .f32 :=
  sout3_A_0 c (grid3.coords t) (ms3_0 t) (hs3_0 t) (ms3_1 t) (hs3_1 t) (ms3_2 t) (hs3_2 t) scM3_0 (Memref.isWhole_whole _) ((hcond3_0 t).mpr h0) (mt (hcond3_1 t).mp h1) (iblk3 V c 0 t) (iblk3 V c 1 t)
def ptB3 (h0 : ¬t.val % 8 = 0) (h1 : ¬t.val % 8 = 7) (xs : Vec F S1024x64 .f32) : Vec F S1024x64 .f32 :=
  sout3_B_0 c (grid3.coords t) (ms3_0 t) (hs3_0 t) (ms3_1 t) (hs3_1 t) (ms3_2 t) (hs3_2 t) scM3_0 (Memref.isWhole_whole _) (mt (hcond3_0 t).mp h0) (mt (hcond3_1 t).mp h1) (iblk3 V c 0 t) (iblk3 V c 1 t) xs
def ptC3 (h0 : ¬t.val % 8 = 0) (h1 : t.val % 8 = 7) (xs : Vec F S1024x64 .f32) : Vec F S1024x64 .f32 :=
  sout3_C_0 c (grid3.coords t) (ms3_0 t) (hs3_0 t) (ms3_1 t) (hs3_1 t) (ms3_2 t) (hs3_2 t) scM3_0 (Memref.isWhole_whole _) (mt (hcond3_0 t).mp h0) ((hcond3_1 t).mpr h1) (iblk3 V c 0 t) (iblk3 V c 1 t) xs
def ptO3 (h0 : ¬t.val % 8 = 0) (h1 : t.val % 8 = 7) (xs : Vec F S1024x64 .f32) : Vec F S1024x64 .f32 :=
  out3_C_2 c (grid3.coords t) (ms3_0 t) (hs3_0 t) (ms3_1 t) (hs3_1 t) (ms3_2 t) (hs3_2 t) scM3_0 (Memref.isWhole_whole _) (mt (hcond3_0 t).mp h0) ((hcond3_1 t).mpr h1) (iblk3 V c 0 t) (iblk3 V c 1 t) xs

end Point

/-- What the accumulator holds after grid point number `n`. -/
def accAt3 (c : Dev nD) : (n : ℕ) → n < cfg3.N → Vec F S1024x64 .f32
  | 0, hn => ptA3 V c ⟨0, hn⟩ (Nat.zero_mod _) (by show ¬0 % 8 = 7; decide)
  | n + 1, hn =>
    if h0 : (n + 1) % 8 = 0 then ptA3 V c ⟨n + 1, hn⟩ h0 (by show ¬(n + 1) % 8 = 7; omega)
    else if h1 : (n + 1) % 8 = 7 then ptC3 V c ⟨n + 1, hn⟩ h0 h1 (accAt3 c n (Nat.lt_of_succ_lt hn))
    else ptB3 V c ⟨n + 1, hn⟩ h0 h1 (accAt3 c n (Nat.lt_of_succ_lt hn))

/-- What the point before `t` left in the accumulator. -/
abbrev accPrev3 (c : Dev nD) (t : Fin cfg3.N) : Vec F S1024x64 .f32 :=
  accAt3 V c (t.val - 1) (Nat.lt_of_le_of_lt (Nat.sub_le _ _) t.isLt)

theorem accAt3_A (c : Dev nD) (t : Fin cfg3.N) (h0 : t.val % 8 = 0) (h1 : ¬t.val % 8 = 7) :
    accAt3 V c t.val t.isLt = ptA3 V c t h0 h1 := by
  obtain ⟨n, hn⟩ := t
  cases n with
  | zero => rfl
  | succ n => exact (dif_pos h0).trans rfl

theorem accAt3_B (c : Dev nD) (t : Fin cfg3.N) (h0 : ¬t.val % 8 = 0) (h1 : ¬t.val % 8 = 7) :
    accAt3 V c t.val t.isLt = ptB3 V c t h0 h1 (accPrev3 V c t) := by
  obtain ⟨n, hn⟩ := t
  cases n with
  | zero => exact absurd (Nat.zero_mod _) h0
  | succ n => exact (dif_neg h0).trans ((dif_neg h1).trans rfl)

theorem accAt3_C (c : Dev nD) (t : Fin cfg3.N) (h0 : ¬t.val % 8 = 0) (h1 : t.val % 8 = 7) :
    accAt3 V c t.val t.isLt = ptC3 V c t h0 h1 (accPrev3 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt3 (c : Dev nD) (n : ℕ) (hn : n < cfg3.N) : Vec F S1024x64 .f32 :=
  if h1 : n % 8 = 7 then ptO3 V c ⟨n, hn⟩ (by show ¬n % 8 = 0; omega) h1 (accPrev3 V c ⟨n, hn⟩)
  else VO3_2.read (Elt F) VO3_2.junk

theorem outAt3_C (c : Dev nD) (t : Fin cfg3.N) (h0 : ¬t.val % 8 = 0) (h1 : t.val % 8 = 7) :
    outAt3 V c t.val t.isLt = ptO3 V c t h0 h1 (accPrev3 V c t) :=
  dif_pos h1

/-- The invariant between points: after point `n` the accumulator holds `accAt3 n`; before the first point, anything. -/
def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_succ (c : Dev nD) (n : ℕ) (hn : n < cfg3.N) :
    PhiS3 V c (n + 1) hn = iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- The invariant at any point implies the one that says nothing of the accumulator's contents. -/
theorem PhiS3_forget (c : Dev nD) (n : ℕ) (h : n ≤ cfg3.N) : PhiS3 V c n h ⊢ (Pipeline.ΦA spec3 c : sProp 𝕄) := by
  cases n with
  | zero => exact .rfl
  | succ n =>
    rw [PhiS3_succ, PhiA3_eq]
    iintro ⟨⟨HS0, Hb⟩, Hg⟩
    isplitl [HS0 Hb]
    · isplitl [HS0]
      · iexists _; iexact HS0
      iexact Hb
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t.val t.isLt
  Φ t := PhiS3 V c t.val (Nat.le_of_lt_succ t.isLt)
  q _ := fullShare
  owed _ := 0

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3 V c t.val t.isLt := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point keeps the invariant: k decides the case, and at k = 0 what the accumulator held is not used. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [PhiS3_castSucc V c t]
  by_cases h0 : t.val % 8 = 0
  · have h1 : ¬t.val % 8 = 7 := by omega
    rw [Dat.leavesExact_idle (dat3 V c) 2 t (idleAt3_2 t (mt (hcond3_1 t).mp h1)) (noFlush3_2 t (mt (hcond3_1 t).mp h1))]
    rw [accAt3_A V c t h0 h1]
    unfold ptA3 sout3_A_0; (try dsimp only)
    refine (sep_mono ((PhiS3_forget V c _ _).trans (PhiA3_eq c).le) .rfl).trans ?_
    iintro ⟨⟨⟨HS0, Hb⟩, Hg⟩, Ho, ⟨%d0, H0⟩, ⟨%d1, H1⟩, ⟨%d2, H2⟩⟩
    iapply ((kernelRun3_A c (grid3.coords t) _ _ _ _ _ _ _ _ ((hcond3_0 t).mpr h0) (mt (hcond3_1 t).mp h1) (iblk3 V c 0 t) (iblk3 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover3_A_0 c _ _ _ _ _ _ _ _ _ _ _ _ _)
    iexists _; iexact H2
  · have hz : t.val ≠ 0 := fun h => h0 (by rw [h])
    rw [PhiS3_pos V c _ _ hz]
    by_cases h1 : t.val % 8 = 7
    · rw [show (dat3 V c).leavesExact 2 t = owns (c : Thread nD τ) (ms3_2 t) fullShare ((dat3 V c).after 2 t) from by
        unfold Dat.leavesExact; rw [liveAt3_2 t ((hcond3_1 t).mpr h1)], after3_2]
      rw [accAt3_C V c t h0 h1, outAt3_C V c t h0 h1]
      unfold ptO3 ptC3 out3_C_2 sout3_C_0; (try dsimp only)
      iintro ⟨⟨⟨HS0, Hb⟩, Hg⟩, Ho, ⟨%d0, H0⟩, ⟨%d1, H1⟩, ⟨%d2, H2⟩⟩
      iapply ((kernelRun3_C c (grid3.coords t) _ _ _ _ _ _ _ _ (mt (hcond3_0 t).mp h0) ((hcond3_1 t).mpr h1) (iblk3 V c 0 t) (iblk3 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover3_C_0 c _ _ _ _ _ _ _ _ _ _ _ _ _ _)
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (mt (hcond3_1 t).mp h1)) (noFlush3_2 t (mt (hcond3_1 t).mp h1))]
      rw [accAt3_B V c t h0 h1]
      unfold ptB3 sout3_B_0; (try dsimp only)
      iintro ⟨⟨⟨HS0, Hb⟩, Hg⟩, Ho, ⟨%d0, H0⟩, ⟨%d1, H1⟩, ⟨%d2, H2⟩⟩
      iapply ((kernelRun3_B c (grid3.coords t) _ _ _ _ _ _ _ _ (mt (hcond3_0 t).mp h0) (mt (hcond3_1 t).mp h1) (iblk3 V c 0 t) (iblk3 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover3_B_0 c _ _ _ _ _ _ _ _ _ _ _ _ _ _)
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Pipeline.ΦA spec3 c from rfl]

theorem hout3 (c : Dev nD) : (dat3 V c).Φ (Fin.last cfg3.N) ⊢ (Pipeline.ΦA spec3 c : sProp 𝕄) :=
  PhiS3_forget V c (Fin.last cfg3.N).val (Nat.le_of_lt_succ (Fin.last cfg3.N).isLt)

end

end Cert.Kernel.Fr

end
-- ==== Proof.KB.Reg4Runs.lean ====
import proofs.«114230_j63153199120588_1_alg».proof.Proof.Gen.Kernel.Launch
import proofs.«114230_j63153199120588_1_alg».proof.Proof.Gen.Kernel.Skeleton
import proofs.«114230_j63153199120588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator is reset where the second grid coordinate k is zero. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)

/-- The accumulator is copied out where k is seven. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

abbrev VO4_2 : View sig .tc .vmem S1024x64 .f32 := (Memref.whole cc4_stg2_0 : Memref sig .tc .vmem S1024x64 .f32).view
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x64 .f32 := win4_2.stage (cfg4.slots t 2)
abbrev hs4_2 (t : Fin cfg4.N) : (ms4_2 t).IsWhole := hstage4_2 ((cfg4.slots t 2).cast nbuf4_2)
abbrev scM4_0 : Memref sig .tc .vmem S1024x64 .f32 := Memref.whole cc4_scratch0
abbrev VS4_0 : View sig .tc .vmem S1024x64 .f32 := scM4_0.view

variable (c : Dev nD) (i : grid4.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun4_A (hc0 : cond4_0 i) (hc1 : ¬cond4_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun4_B (hc0 : ¬cond4_0 i) (hc1 : ¬cond4_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun4_C (hc0 : ¬cond4_0 i) (hc1 : cond4_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KB.Reg4.lean ====
import proofs.«114230_j63153199120588_1_alg».proof.Proof.KB.Reg4Runs

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pieces

variable (c : Dev nD) (i : grid4.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover4_A_0 (hc0 : cond4_0 i) (hc1 : ¬cond4_1 i) (x0 : Vec F S1024x1024 .f32) (x1 : Vec F S1024x64 .f32) (y : S1024x64.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x64.size (by sl_kernel_rfl) y

/-- What a point with k = 0 leaves in the accumulator: the stored pieces read back as one block. -/
def sout4_A_0 (hc0 : cond4_0 i) (hc1 : ¬cond4_1 i) (x0 : Vec F S1024x1024 .f32) (x1 : Vec F S1024x64 .f32) : Vec F S1024x64 .f32 :=
  VS4_0.read (Elt F) (VS4_0.writes (Elt F) VS4_0.junk (kernelRun4_A c i arg2 harg2 arg3 harg3 arg4 harg4 arg5 harg5 hc0 hc1 x0 x1).2.1)

theorem scover4_B_0 (hc0 : ¬cond4_0 i) (hc1 : ¬cond4_1 i) (x0 : Vec F S1024x1024 .f32) (x1 xs0 : Vec F S1024x64 .f32) (y : S1024x64.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x64.size (by sl_kernel_rfl) y

def sout4_B_0 (hc0 : ¬cond4_0 i) (hc1 : ¬cond4_1 i) (x0 : Vec F S1024x1024 .f32) (x1 xs0 : Vec F S1024x64 .f32) : Vec F S1024x64 .f32 :=
  VS4_0.read (Elt F) (VS4_0.writes (Elt F) VS4_0.junk (kernelRun4_B c i arg2 harg2 arg3 harg3 arg4 harg4 arg5 harg5 hc0 hc1 x0 x1 xs0).2.1)

theorem scover4_C_0 (hc0 : ¬cond4_0 i) (hc1 : cond4_1 i) (x0 : Vec F S1024x1024 .f32) (x1 xs0 : Vec F S1024x64 .f32) (y : S1024x64.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x64.size (by sl_kernel_rfl) y

def sout4_C_0 (hc0 : ¬cond4_0 i) (hc1 : cond4_1 i) (x0 : Vec F S1024x1024 .f32) (x1 xs0 : Vec F S1024x64 .f32) : Vec F S1024x64 .f32 :=
  VS4_0.read (Elt F) (VS4_0.writes (Elt F) VS4_0.junk (kernelRun4_C c i arg2 harg2 arg3 harg3 arg4 harg4 arg5 harg5 hc0 hc1 x0 x1 xs0).2.1)

theorem cover4_C_2 (hc0 : ¬cond4_0 i) (hc1 : cond4_1 i) (x0 : Vec F S1024x1024 .f32) (x1 xs0 : Vec F S1024x64 .f32) (y : S1024x64.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x64.size (by sl_kernel_rfl) y

/-- What a point with k = 7 leaves in the output block. -/
def out4_C_2 (hc0 : ¬cond4_0 i) (hc1 : cond4_1 i) (x0 : Vec F S1024x1024 .f32) (x1 xs0 : Vec F S1024x64 .f32) : Vec F S1024x64 .f32 :=
  VO4_2.read (Elt F) (VO4_2.writes (Elt F) VO4_2.junk (kernelRun4_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

section Point
variable (c : Dev nD) (t : Fin cfg4.N)

/-- The three cases at grid point `t`: the accumulator afterwards (k = 0; 0 < k < 7; k = 7) and the output block at k = 7. -/
def ptA4 (h0 : t.val % 8 = 0) (h1 : ¬t.val % 8 = 7) : Vec F S1024x64 .f32 :=
  sout4_A_0 c (grid4.coords t) (ms4_0 t) (hs4_0 t) (ms4_1 t) (hs4_1 t) (ms4_2 t) (hs4_2 t) scM4_0 (Memref.isWhole_whole _) ((hcond4_0 t).mpr h0) (mt (hcond4_1 t).mp h1) (iblk4 V c 0 t) (iblk4 V c 1 t)
def ptB4 (h0 : ¬t.val % 8 = 0) (h1 : ¬t.val % 8 = 7) (xs : Vec F S1024x64 .f32) : Vec F S1024x64 .f32 :=
  sout4_B_0 c (grid4.coords t) (ms4_0 t) (hs4_0 t) (ms4_1 t) (hs4_1 t) (ms4_2 t) (hs4_2 t) scM4_0 (Memref.isWhole_whole _) (mt (hcond4_0 t).mp h0) (mt (hcond4_1 t).mp h1) (iblk4 V c 0 t) (iblk4 V c 1 t) xs
def ptC4 (h0 : ¬t.val % 8 = 0) (h1 : t.val % 8 = 7) (xs : Vec F S1024x64 .f32) : Vec F S1024x64 .f32 :=
  sout4_C_0 c (grid4.coords t) (ms4_0 t) (hs4_0 t) (ms4_1 t) (hs4_1 t) (ms4_2 t) (hs4_2 t) scM4_0 (Memref.isWhole_whole _) (mt (hcond4_0 t).mp h0) ((hcond4_1 t).mpr h1) (iblk4 V c 0 t) (iblk4 V c 1 t) xs
def ptO4 (h0 : ¬t.val % 8 = 0) (h1 : t.val % 8 = 7) (xs : Vec F S1024x64 .f32) : Vec F S1024x64 .f32 :=
  out4_C_2 c (grid4.coords t) (ms4_0 t) (hs4_0 t) (ms4_1 t) (hs4_1 t) (ms4_2 t) (hs4_2 t) scM4_0 (Memref.isWhole_whole _) (mt (hcond4_0 t).mp h0) ((hcond4_1 t).mpr h1) (iblk4 V c 0 t) (iblk4 V c 1 t) xs

end Point

/-- What the accumulator holds after grid point number `n`. -/
def accAt4 (c : Dev nD) : (n : ℕ) → n < cfg4.N → Vec F S1024x64 .f32
  | 0, hn => ptA4 V c ⟨0, hn⟩ (Nat.zero_mod _) (by show ¬0 % 8 = 7; decide)
  | n + 1, hn =>
    if h0 : (n + 1) % 8 = 0 then ptA4 V c ⟨n + 1, hn⟩ h0 (by show ¬(n + 1) % 8 = 7; omega)
    else if h1 : (n + 1) % 8 = 7 then ptC4 V c ⟨n + 1, hn⟩ h0 h1 (accAt4 c n (Nat.lt_of_succ_lt hn))
    else ptB4 V c ⟨n + 1, hn⟩ h0 h1 (accAt4 c n (Nat.lt_of_succ_lt hn))

/-- What the point before `t` left in the accumulator. -/
abbrev accPrev4 (c : Dev nD) (t : Fin cfg4.N) : Vec F S1024x64 .f32 :=
  accAt4 V c (t.val - 1) (Nat.lt_of_le_of_lt (Nat.sub_le _ _) t.isLt)

theorem accAt4_A (c : Dev nD) (t : Fin cfg4.N) (h0 : t.val % 8 = 0) (h1 : ¬t.val % 8 = 7) :
    accAt4 V c t.val t.isLt = ptA4 V c t h0 h1 := by
  obtain ⟨n, hn⟩ := t
  cases n with
  | zero => rfl
  | succ n => exact (dif_pos h0).trans rfl

theorem accAt4_B (c : Dev nD) (t : Fin cfg4.N) (h0 : ¬t.val % 8 = 0) (h1 : ¬t.val % 8 = 7) :
    accAt4 V c t.val t.isLt = ptB4 V c t h0 h1 (accPrev4 V c t) := by
  obtain ⟨n, hn⟩ := t
  cases n with
  | zero => exact absurd (Nat.zero_mod _) h0
  | succ n => exact (dif_neg h0).trans ((dif_neg h1).trans rfl)

theorem accAt4_C (c : Dev nD) (t : Fin cfg4.N) (h0 : ¬t.val % 8 = 0) (h1 : t.val % 8 = 7) :
    accAt4 V c t.val t.isLt = ptC4 V c t h0 h1 (accPrev4 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt4 (c : Dev nD) (n : ℕ) (hn : n < cfg4.N) : Vec F S1024x64 .f32 :=
  if h1 : n % 8 = 7 then ptO4 V c ⟨n, hn⟩ (by show ¬n % 8 = 0; omega) h1 (accPrev4 V c ⟨n, hn⟩)
  else VO4_2.read (Elt F) VO4_2.junk

theorem outAt4_C (c : Dev nD) (t : Fin cfg4.N) (h0 : ¬t.val % 8 = 0) (h1 : t.val % 8 = 7) :
    outAt4 V c t.val t.isLt = ptO4 V c t h0 h1 (accPrev4 V c t) :=
  dif_pos h1

/-- The invariant between points: after point `n` the accumulator holds `accAt4 n`; before the first point, anything. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn) ∗ Pipeline.scopedRestBut (Ix := Unit) (Name := ℕ) (U := UR sig nD τ) (Lvl := ℕ) (Val := Elt F) spec4 c [cc4_scratch0]) ∗ (∃ r, prngReg c r))

theorem PhiS4_succ (c : Dev nD) (n : ℕ) (hn : n < cfg4.N) :
    PhiS4 V c (n + 1) hn = iprop(iprop(owns (c : Thread nD τ) scM4_0 fullShare (accAt4 V c n hn) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare (accAt4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-- The invariant at any point implies the one that says nothing of the accumulator's contents. -/
theorem PhiS4_forget (c : Dev nD) (n : ℕ) (h : n ≤ cfg4.N) : PhiS4 V c n h ⊢ (Pipeline.ΦA spec4 c : sProp 𝕄) := by
  cases n with
  | zero => exact .rfl
  | succ n =>
    rw [PhiS4_succ, PhiA4_eq]
    iintro ⟨⟨HS0, Hb⟩, Hg⟩
    isplitl [HS0 Hb]
    · isplitl [HS0]
      · iexists _; iexact HS0
      iexact Hb
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t.val t.isLt
  Φ t := PhiS4 V c t.val (Nat.le_of_lt_succ t.isLt)
  q _ := fullShare
  owed _ := 0

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point keeps the invariant: k decides the case, and at k = 0 what the accumulator held is not used. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [PhiS4_castSucc V c t]
  by_cases h0 : t.val % 8 = 0
  · have h1 : ¬t.val % 8 = 7 := by omega
    rw [Dat.leavesExact_idle (dat4 V c) 2 t (idleAt4_2 t (mt (hcond4_1 t).mp h1)) (noFlush4_2 t (mt (hcond4_1 t).mp h1))]
    rw [accAt4_A V c t h0 h1]
    unfold ptA4 sout4_A_0; (try dsimp only)
    refine (sep_mono ((PhiS4_forget V c _ _).trans (PhiA4_eq c).le) .rfl).trans ?_
    iintro ⟨⟨⟨HS0, Hb⟩, Hg⟩, Ho, ⟨%d0, H0⟩, ⟨%d1, H1⟩, ⟨%d2, H2⟩⟩
    iapply ((kernelRun4_A c (grid4.coords t) _ _ _ _ _ _ _ _ ((hcond4_0 t).mpr h0) (mt (hcond4_1 t).mp h1) (iblk4 V c 0 t) (iblk4 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover4_A_0 c _ _ _ _ _ _ _ _ _ _ _ _ _)
    iexists _; iexact H2
  · have hz : t.val ≠ 0 := fun h => h0 (by rw [h])
    rw [PhiS4_pos V c _ _ hz]
    by_cases h1 : t.val % 8 = 7
    · rw [show (dat4 V c).leavesExact 2 t = owns (c : Thread nD τ) (ms4_2 t) fullShare ((dat4 V c).after 2 t) from by
        unfold Dat.leavesExact; rw [liveAt4_2 t ((hcond4_1 t).mpr h1)], after4_2]
      rw [accAt4_C V c t h0 h1, outAt4_C V c t h0 h1]
      unfold ptO4 ptC4 out4_C_2 sout4_C_0; (try dsimp only)
      iintro ⟨⟨⟨HS0, Hb⟩, Hg⟩, Ho, ⟨%d0, H0⟩, ⟨%d1, H1⟩, ⟨%d2, H2⟩⟩
      iapply ((kernelRun4_C c (grid4.coords t) _ _ _ _ _ _ _ _ (mt (hcond4_0 t).mp h0) ((hcond4_1 t).mpr h1) (iblk4 V c 0 t) (iblk4 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover4_C_0 c _ _ _ _ _ _ _ _ _ _ _ _ _ _)
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (mt (hcond4_1 t).mp h1)) (noFlush4_2 t (mt (hcond4_1 t).mp h1))]
      rw [accAt4_B V c t h0 h1]
      unfold ptB4 sout4_B_0; (try dsimp only)
      iintro ⟨⟨⟨HS0, Hb⟩, Hg⟩, Ho, ⟨%d0, H0⟩, ⟨%d1, H1⟩, ⟨%d2, H2⟩⟩
      iapply ((kernelRun4_B c (grid4.coords t) _ _ _ _ _ _ _ _ (mt (hcond4_0 t).mp h0) (mt (hcond4_1 t).mp h1) (iblk4 V c 0 t) (iblk4 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover4_B_0 c _ _ _ _ _ _ _ _ _ _ _ _ _ _)
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Pipeline.ΦA spec4 c from rfl]

theorem hout4 (c : Dev nD) : (dat4 V c).Φ (Fin.last cfg4.N) ⊢ (Pipeline.ΦA spec4 c : sProp 𝕄) :=
  PhiS4_forget V c (Fin.last cfg4.N).val (Nat.le_of_lt_succ (Fin.last cfg4.N).isLt)

end

end Cert.Kernel.Fr

end
-- ==== Proof.KB.Run.lean ====
import proofs.«114230_j63153199120588_1_alg».proof.Proof.KB.Reg0
import proofs.«114230_j63153199120588_1_alg».proof.Proof.KB.Reg1
import proofs.«114230_j63153199120588_1_alg».proof.Proof.KB.Reg2
import proofs.«114230_j63153199120588_1_alg».proof.Proof.KB.Reg3
import proofs.«114230_j63153199120588_1_alg».proof.Proof.KB.Reg4
import proofs.«114230_j63153199120588_1_alg».proof.Proof.Gen.Kernel.Regions
import Idealize.ShloMosaic.Lib.Pipeline.RegionsLoop
import Idealize.ShloMosaic.Lib.Pipeline.FrameSuffix

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev rd (W : Dev nD → Valuation τ sig (Elt F)) : (c : Dev nD) → (b : Ref sig .tc) → Buf (Elt F) ((c : Thread nD τ).loc b) := fun c b => W c b

def W1 (c : Dev nD) : Valuation τ sig (Elt F) :=
  Pipeline.withArrays spec0 c (W0 m ρ c) fun w => (dat0 (rd (W0 m ρ)) c).arrAt w cfg0.N
theorem W1_arr (c : Dev nD) (w : Fin cfg0.W) :
    W1 m ρ c (Proc.devRef .tc (Pipeline.arrRef spec0 w)) = (dat0 (rd (W0 m ρ)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev W2 : Dev nD → Valuation τ sig (Elt F) := fun c => StableHlo.after hostOps1 (W1 m ρ c)

theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

def W3 (c : Dev nD) : Valuation τ sig (Elt F) :=
  Pipeline.withArrays spec1 c (W2 m ρ c) fun w => (dat1 (rd (W2 m ρ)) c).arrAt w cfg1.N
theorem W3_arr (c : Dev nD) (w : Fin cfg1.W) :
    W3 m ρ c (Proc.devRef .tc (Pipeline.arrRef spec1 w)) = (dat1 (rd (W2 m ρ)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev W4 : Dev nD → Valuation τ sig (Elt F) := fun c => StableHlo.after hostOps2 (W3 m ρ c)

theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

def W5 (c : Dev nD) : Valuation τ sig (Elt F) :=
  Pipeline.withArrays spec2 c (W4 m ρ c) fun w => (dat2 (rd (W4 m ρ)) c).arrAt w cfg2.N
theorem W5_arr (c : Dev nD) (w : Fin cfg2.W) :
    W5 m ρ c (Proc.devRef .tc (Pipeline.arrRef spec2 w)) = (dat2 (rd (W4 m ρ)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev W6 : Dev nD → Valuation τ sig (Elt F) := fun c => StableHlo.after hostOps3 (W5 m ρ c)

theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h

def W7 (c : Dev nD) : Valuation τ sig (Elt F) :=
  Pipeline.withArrays spec3 c (W6 m ρ c) fun w => (dat3 (rd (W6 m ρ)) c).arrAt w cfg3.N
theorem W7_arr (c : Dev nD) (w : Fin cfg3.W) :
    W7 m ρ c (Proc.devRef .tc (Pipeline.arrRef spec3 w)) = (dat3 (rd (W6 m ρ)) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev W8 : Dev nD → Valuation τ sig (Elt F) := fun c => StableHlo.after hostOps4 (W7 m ρ c)

theorem W8_of (c : Dev nD) (r : Ref sig .tc) (h : r ∉ hostOps4_W) :
    W8 m ρ c (Proc.devRef .tc r) = W7 m ρ c (Proc.devRef .tc r) :=
  StableHlo.after_of_writes_sub hostOps4 _ hostOps4_writes h

def W9 (c : Dev nD) : Valuation τ sig (Elt F) :=
  Pipeline.withArrays spec4 c (W8 m ρ c) fun w => (dat4 (rd (W8 m ρ)) c).arrAt w cfg4.N
theorem W9_arr (c : Dev nD) (w : Fin cfg4.W) :
    W9 m ρ c (Proc.devRef .tc (Pipeline.arrRef spec4 w)) = (dat4 (rd (W8 m ρ)) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

abbrev W10 : Dev nD → Valuation τ sig (Elt F) := fun c => StableHlo.after hostOps5 (W9 m ρ c)

theorem W10_of (c : Dev nD) (r : Ref sig .tc) (h : r ∉ hostOps5_W) :
    W10 m ρ c (Proc.devRef .tc r) = W9 m ρ c (Proc.devRef .tc r) :=
  StableHlo.after_of_writes_sub hostOps5 _ hostOps5_writes h

/-- Region 0 changes only its output array. -/
theorem W1_keep (c : Dev nD) (r : Ref sig .tc) (h : r ≠ main_v0) : W1 m ρ c (Proc.devRef .tc r) = W0 m ρ c (Proc.devRef .tc r) := by
  by_cases hw : ∀ w, Pipeline.arrRef spec0 w ≠ r
  · exact W1_of_ne m ρ c r hw
  · obtain ⟨w, rfl⟩ := not_forall_not.mp hw
    match w with
    | ⟨0, _⟩ => exact (W1_arr m ρ c 0).trans (((dat0 (rd (W0 m ρ)) c).arrAt_in 0 rfl _))
    | ⟨1, _⟩ => exact (W1_arr m ρ c 1).trans (((dat0 (rd (W0 m ρ)) c).arrAt_in 1 rfl _))
    | ⟨2, _⟩ => exact absurd rfl h

theorem W3_keep (c : Dev nD) (r : Ref sig .tc) (h : r ≠ main_v5) : W3 m ρ c (Proc.devRef .tc r) = W2 m ρ c (Proc.devRef .tc r) := by
  by_cases hw : ∀ w, Pipeline.arrRef spec1 w ≠ r
  · exact W3_of_ne m ρ c r hw
  · obtain ⟨w, rfl⟩ := not_forall_not.mp hw
    match w with
    | ⟨0, _⟩ => exact (W3_arr m ρ c 0).trans (((dat1 (rd (W2 m ρ)) c).arrAt_in 0 rfl _))
    | ⟨1, _⟩ => exact (W3_arr m ρ c 1).trans (((dat1 (rd (W2 m ρ)) c).arrAt_in 1 rfl _))
    | ⟨2, _⟩ => exact absurd rfl h

theorem W5_keep (c : Dev nD) (r : Ref sig .tc) (h : r ≠ main_v11) : W5 m ρ c (Proc.devRef .tc r) = W4 m ρ c (Proc.devRef .tc r) := by
  by_cases hw : ∀ w, Pipeline.arrRef spec2 w ≠ r
  · exact W5_of_ne m ρ c r hw
  · obtain ⟨w, rfl⟩ := not_forall_not.mp hw
    match w with
    | ⟨0, _⟩ => exact (W5_arr m ρ c 0).trans (((dat2 (rd (W4 m ρ)) c).arrAt_in 0 rfl _))
    | ⟨1, _⟩ => exact (W5_arr m ρ c 1).trans (((dat2 (rd (W4 m ρ)) c).arrAt_in 1 rfl _))
    | ⟨2, _⟩ => exact absurd rfl h

theorem W7_keep (c : Dev nD) (r : Ref sig .tc) (h : r ≠ main_v24) : W7 m ρ c (Proc.devRef .tc r) = W6 m ρ c (Proc.devRef .tc r) := by
  by_cases hw : ∀ w, Pipeline.arrRef spec3 w ≠ r
  · exact W7_of_ne m ρ c r hw
  · obtain ⟨w, rfl⟩ := not_forall_not.mp hw
    match w with
    | ⟨0, _⟩ => exact (W7_arr m ρ c 0).trans (((dat3 (rd (W6 m ρ)) c).arrAt_in 0 rfl _))
    | ⟨1, _⟩ => exact (W7_arr m ρ c 1).trans (((dat3 (rd (W6 m ρ)) c).arrAt_in 1 rfl _))
    | ⟨2, _⟩ => exact absurd rfl h

theorem W9_keep (c : Dev nD) (r : Ref sig .tc) (h : r ≠ main_v30) : W9 m ρ c (Proc.devRef .tc r) = W8 m ρ c (Proc.devRef .tc r) := by
  by_cases hw : ∀ w, Pipeline.arrRef spec4 w ≠ r
  · exact W9_of_ne m ρ c r hw
  · obtain ⟨w, rfl⟩ := not_forall_not.mp hw
    match w with
    | ⟨0, _⟩ => exact (W9_arr m ρ c 0).trans (((dat4 (rd (W8 m ρ)) c).arrAt_in 0 rfl _))
    | ⟨1, _⟩ => exact (W9_arr m ρ c 1).trans (((dat4 (rd (W8 m ρ)) c).arrAt_in 1 rfl _))
    | ⟨2, _⟩ => exact absurd rfl h

/-- A buffer that no step of @main writes. -/
abbrev Unwritten (r : Ref sig .tc) : Prop :=
  r ≠ main_v0 ∧ r ∉ hostOps1_W ∧ r ≠ main_v5 ∧ r ∉ hostOps2_W ∧ r ≠ main_v11 ∧ r ∉ hostOps3_W ∧ r ≠ main_v24 ∧ r ∉ hostOps4_W
    ∧ r ≠ main_v30 ∧ r ∉ hostOps5_W

section
variable (c : Dev nD) (r : Ref sig .tc) (h : Unwritten r)
include h

theorem W1_arg : W1 m ρ c (Proc.devRef .tc r) = m ((c : Thread nD τ).loc r) := (W1_keep m ρ c r h.1).trans rfl
theorem W2_arg : W2 m ρ c (Proc.devRef .tc r) = m ((c : Thread nD τ).loc r) := (W2_of m ρ c r h.2.1).trans (W1_arg m ρ c r h)
theorem W3_arg : W3 m ρ c (Proc.devRef .tc r) = m ((c : Thread nD τ).loc r) := (W3_keep m ρ c r h.2.2.1).trans (W2_arg m ρ c r h)
theorem W4_arg : W4 m ρ c (Proc.devRef .tc r) = m ((c : Thread nD τ).loc r) := (W4_of m ρ c r h.2.2.2.1).trans (W3_arg m ρ c r h)
theorem W5_arg : W5 m ρ c (Proc.devRef .tc r) = m ((c : Thread nD τ).loc r) := (W5_keep m ρ c r h.2.2.2.2.1).trans (W4_arg m ρ c r h)
theorem W6_arg : W6 m ρ c (Proc.devRef .tc r) = m ((c : Thread nD τ).loc r) := (W6_of m ρ c r h.2.2.2.2.2.1).trans (W5_arg m ρ c r h)
theorem W7_arg : W7 m ρ c (Proc.devRef .tc r) = m ((c : Thread nD τ).loc r) := (W7_keep m ρ c r h.2.2.2.2.2.2.1).trans (W6_arg m ρ c r h)
theorem W8_arg : W8 m ρ c (Proc.devRef .tc r) = m ((c : Thread nD τ).loc r) := (W8_of m ρ c r h.2.2.2.2.2.2.2.1).trans (W7_arg m ρ c r h)
theorem W9_arg : W9 m ρ c (Proc.devRef .tc r) = m ((c : Thread nD τ).loc r) := (W9_keep m ρ c r h.2.2.2.2.2.2.2.2.1).trans (W8_arg m ρ c r h)
theorem W10_arg : W10 m ρ c (Proc.devRef .tc r) = m ((c : Thread nD τ).loc r) := (W10_of m ρ c r h.2.2.2.2.2.2.2.2.2).trans (W9_arg m ρ c r h)

end

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (rd (W0 m ρ)) c
  | ⟨1, _⟩ => fun c => dat1 (rd (W2 m ρ)) c
  | ⟨2, _⟩ => fun c => dat2 (rd (W4 m ρ)) c
  | ⟨3, _⟩ => fun c => dat3 (rd (W6 m ρ)) c
  | ⟨4, _⟩ => fun c => dat4 (rd (W8 m ρ)) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

section
variable (p : Fin 5) (lf : Pipeline.LaunchFacts (nD := nD) (τ := τ) cfgs p) (W W' : Dev nD → Valuation τ sig (Elt F))

abbrev cf : Pipeline.Cfg sig Λ₀ := Pipeline.pin (pcfgs (F := F)) adm p

set_option backward.isDefEq.respectTransparency.types false in
/-- A kernel region as a step of @main from the contents `W` to the contents `W'`. -/
def regOf (hbody : ∀ c, BodyObligation (pdats m ρ p c) (defs₀ (F := F)) 𝒱₀ () Set.univ)
    (hA : ∀ c w, (pdats m ρ p c).A w = rd W c (Pipeline.arrRef (cf (F := F) p).spec w))
    (hq : ∀ c w, (pdats m ρ p c).q w = fullShare) (howed : ∀ c t, (pdats m ρ p c).owed t = 0)
    (hrec : ∀ c, (pdats m ρ p c).recorded 0 = Set.univ)
    (hin : ∀ c, (Pipeline.ΦA (cf (F := F) p).spec c : sProp 𝕄) ⊢ (pdats m ρ p c).Φ 0)
    (hout : ∀ c, (pdats m ρ p c).Φ (Fin.last (cf (F := F) p).N) ⊢ (Pipeline.ΦA (cf (F := F) p).spec c : sProp 𝕄))
    (hF : ∀ c w, W' c (Proc.devRef .tc (Pipeline.arrRef (cf (F := F) p).spec w)) = (pdats m ρ p c).arrAt w (cf (F := F) p).N)
    (hne : ∀ c (b : Ref sig .tc), (∀ w, Pipeline.arrRef (cf (F := F) p).spec w ≠ b) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cf (F := F) p).spec c (rd W c)
  hentry c := by
    rw [Pipeline.ownSems0_none]
    have hsplit := Pipeline.arrays_of_unscopedBufs (p := p) (pcfgs (F := F)) adm (pdats m ρ) lf.win lf.arr_whole c
      ((pdats m ρ p c).share_full fun w => hq c w) (rd W c) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ p c).owed 0 = 0 from howed c 0]
      icases HO with ⟨%W, HO⟩; iexists W; isplitr
      · ipureintro
        exact fun x _ => Or.inl (show x ∈ (pdats m ρ p c).recorded 0 from (hrec c).symm ▸ Set.mem_univ x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full fun w => hq c w)
      (rd W c) (rd W' c) ((pdats m ρ p c).arrAt · (cf (F := F) p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ p c).owed (Fin.last (cf (F := F) p).N) = 0 from howed c _]
    icases HO with ⟨%W, -, HO⟩; iexists W; iexact HO

end

set_option backward.isDefEq.respectTransparency.types false in
def reg0 : Pipeline.RegionSeg (pcfgs (F := F)) adm (pdats m ρ) () defs₀ 𝒱₀ L lv 0 :=
  regOf m ρ 0 launch0 (W0 m ρ) (W1 m ρ) (body_obligation0 (rd (W0 m ρ))) (fun _ _ => rfl) (fun _ _ => rfl) (fun _ _ => rfl)
    (fun _ => rfl) (hin0 (rd (W0 m ρ))) (hout0 (rd (W0 m ρ))) (W1_arr m ρ) (W1_of_ne m ρ)

set_option backward.isDefEq.respectTransparency.types false in
def reg1 : Pipeline.RegionSeg (pcfgs (F := F)) adm (pdats m ρ) () defs₀ 𝒱₀ L lv 1 :=
  regOf m ρ 1 launch1 (W2 m ρ) (W3 m ρ) (body_obligation1 (rd (W2 m ρ))) (fun _ _ => rfl) (fun _ _ => rfl) (fun _ _ => rfl)
    (fun _ => rfl) (hin1 (rd (W2 m ρ))) (hout1 (rd (W2 m ρ))) (W3_arr m ρ) (W3_of_ne m ρ)

set_option backward.isDefEq.respectTransparency.types false in
def reg2 : Pipeline.RegionSeg (pcfgs (F := F)) adm (pdats m ρ) () defs₀ 𝒱₀ L lv 2 :=
  regOf m ρ 2 launch2 (W4 m ρ) (W5 m ρ) (body_obligation2 (rd (W4 m ρ))) (fun _ _ => rfl) (fun _ _ => rfl) (fun _ _ => rfl)
    (fun _ => rfl) (hin2 (rd (W4 m ρ))) (hout2 (rd (W4 m ρ))) (W5_arr m ρ) (W5_of_ne m ρ)

set_option backward.isDefEq.respectTransparency.types false in
def reg3 : Pipeline.RegionSeg (pcfgs (F := F)) adm (pdats m ρ) () defs₀ 𝒱₀ L lv 3 :=
  regOf m ρ 3 launch3 (W6 m ρ) (W7 m ρ) (body_obligation3 (rd (W6 m ρ))) (fun _ _ => rfl) (fun _ _ => rfl) (fun _ _ => rfl)
    (fun _ => rfl) (hin3 (rd (W6 m ρ))) (hout3 (rd (W6 m ρ))) (W7_arr m ρ) (W7_of_ne m ρ)

set_option backward.isDefEq.respectTransparency.types false in
def reg4 : Pipeline.RegionSeg (pcfgs (F := F)) adm (pdats m ρ) () defs₀ 𝒱₀ L lv 4 :=
  regOf m ρ 4 launch4 (W8 m ρ) (W9 m ρ) (body_obligation4 (rd (W8 m ρ))) (fun _ _ => rfl) (fun _ _ => rfl) (fun _ _ => rfl)
    (fun _ => rfl) (hin4 (rd (W8 m ρ))) (hout4 (rd (W8 m ρ))) (W9_arr m ρ) (W9_of_ne m ρ)

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs (onTc (τ := τ) (main (F := F))) ⟨m, fun _ => 0, ρ⟩).mono (fun r h c =>
    ⟨(h c _ (mem_uc main_arg0 (by decide))).trans (W10_arg m ρ c main_arg0 (by decide)),
     (h c _ (mem_uc main_arg1 (by decide))).trans (W10_arg m ρ c main_arg1 (by decide)),
     (h c _ (mem_uc main_arg2 (by decide))).trans (W10_arg m ρ c main_arg2 (by decide)),
     (h c _ (mem_uc main_arg3 (by decide))).trans (W10_arg m ρ c main_arg3 (by decide)),
     (h c _ (mem_uc main_arg4 (by decide))).trans (W10_arg m ρ c main_arg4 (by decide))⟩) (run_all m ρ)

end Cert.Kernel.Fr

end
-- ==== Proof.KI.Reg0.lean ====
import proofs.«114230_j63153199120588_1_alg».proof.Proof.Gen.KernelIdeal.Launch
import proofs.«114230_j63153199120588_1_alg».proof.Proof.Gen.KernelIdeal.Skeleton
import proofs.«114230_j63153199120588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x64 := Rect.unit (s := S2048x64) ![0, 0] S2048x64.size inb_S2048x64_S2048x64_0_0
abbrev r0_1 : Rect S64x64 := Rect.unit (s := S64x64) ![0, 0] S64x64.size inb_S64x64_S64x64_0_0

def out0_2 (x0 : Vec F S2048x64 .f32) (x1 : Vec F S64x64 .f32) : Vec F S2048x64 .f32 :=
  View.canon [⟨r0_0, k0_pay1 (View.ld x0 r0_0) (View.ld x1 r0_1)⟩]

theorem cover0_2 (p0 : Vec F S2048x64 .f32) (y : S2048x64.Idx) :
    ∃ pc ∈ ([⟨r0_0, p0⟩] : List (View.Piece (Elt F) S2048x64 .f32)), y ∈ pc.1.set :=
  View.cover_of_tiled [⟨r0_0, p0⟩] S2048x64.size (by rfl) y

set_option maxHeartbeats 1000000 in

theorem sound_kernel0 (c : Dev nD) (E : Set ℕ) (i : grid0.Coords)
    (arg0 : Memref sig .tc .vmem S2048x64 .f32) (harg0 : arg0.IsWhole)
    (arg1 : Memref sig .tc .vmem S64x64 .f32) (harg1 : arg1.IsWhole)
    (arg2 : Memref sig .tc .vmem S2048x64 .f32) (harg2 : arg2.IsWhole)
    (x0 : Vec F S2048x64 .f32) (x1 : Vec F S64x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__gemm_kernel i arg0 harg0 arg1 harg1 arg2 harg2) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  dsimp only [dat0]; exact .rfl
theorem hout0 (c : Dev nD) : (dat0 V c).Φ (Fin.last cfg0.N) ⊢ (Pipeline.ΦA spec0 c : sProp 𝕄) := by
  dsimp only [dat0]; exact .rfl

end Cert.KernelIdeal.Fr

end
-- ==== Proof.KI.Reg1Runs.lean ====
import proofs.«114230_j63153199120588_1_alg».proof.Proof.Gen.KernelIdeal.Launch
import proofs.«114230_j63153199120588_1_alg».proof.Proof.Gen.KernelIdeal.Skeleton
import proofs.«114230_j63153199120588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset where the second grid coordinate k is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The accumulator is copied out where k is seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S1024x64 .f32 := (Memref.whole cc1_stg2_0 : Memref sig .tc .vmem S1024x64 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev scM1_0 : Memref sig .tc .vmem S1024x64 .f32 := Memref.whole cc1_scratch0
abbrev VS1_0 : View sig .tc .vmem S1024x64 .f32 := scM1_0.view

variable (c : Dev nD) (i : grid1.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun1_A (hc0 : cond1_0 i) (hc1 : ¬cond1_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun1_B (hc0 : ¬cond1_0 i) (hc1 : ¬cond1_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun1_C (hc0 : ¬cond1_0 i) (hc1 : cond1_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Reg1.lean ====
import proofs.«114230_j63153199120588_1_alg».proof.Proof.KI.Reg1Runs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pieces

variable (c : Dev nD) (i : grid1.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover1_A_0 (hc0 : cond1_0 i) (hc1 : ¬cond1_1 i) (x0 : Vec F S1024x1024 .f32) (x1 : Vec F S1024x64 .f32) (y : S1024x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x64.size (by sl_kernel_rfl) y

/-- What a point with k = 0 leaves in the accumulator: the stored pieces read back as one block. -/
def sout1_A_0 (hc0 : cond1_0 i) (hc1 : ¬cond1_1 i) (x0 : Vec F S1024x1024 .f32) (x1 : Vec F S1024x64 .f32) : Vec F S1024x64 .f32 :=
  VS1_0.read (Elt F) (VS1_0.writes (Elt F) VS1_0.junk (kernelRun1_A c i arg2 harg2 arg3 harg3 arg4 harg4 arg5 harg5 hc0 hc1 x0 x1).2.1)

theorem scover1_B_0 (hc0 : ¬cond1_0 i) (hc1 : ¬cond1_1 i) (x0 : Vec F S1024x1024 .f32) (x1 xs0 : Vec F S1024x64 .f32) (y : S1024x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x64.size (by sl_kernel_rfl) y

def sout1_B_0 (hc0 : ¬cond1_0 i) (hc1 : ¬cond1_1 i) (x0 : Vec F S1024x1024 .f32) (x1 xs0 : Vec F S1024x64 .f32) : Vec F S1024x64 .f32 :=
  VS1_0.read (Elt F) (VS1_0.writes (Elt F) VS1_0.junk (kernelRun1_B c i arg2 harg2 arg3 harg3 arg4 harg4 arg5 harg5 hc0 hc1 x0 x1 xs0).2.1)

theorem scover1_C_0 (hc0 : ¬cond1_0 i) (hc1 : cond1_1 i) (x0 : Vec F S1024x1024 .f32) (x1 xs0 : Vec F S1024x64 .f32) (y : S1024x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x64.size (by sl_kernel_rfl) y

def sout1_C_0 (hc0 : ¬cond1_0 i) (hc1 : cond1_1 i) (x0 : Vec F S1024x1024 .f32) (x1 xs0 : Vec F S1024x64 .f32) : Vec F S1024x64 .f32 :=
  VS1_0.read (Elt F) (VS1_0.writes (Elt F) VS1_0.junk (kernelRun1_C c i arg2 harg2 arg3 harg3 arg4 harg4 arg5 harg5 hc0 hc1 x0 x1 xs0).2.1)

theorem cover1_C_2 (hc0 : ¬cond1_0 i) (hc1 : cond1_1 i) (x0 : Vec F S1024x1024 .f32) (x1 xs0 : Vec F S1024x64 .f32) (y : S1024x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x64.size (by sl_kernel_rfl) y

/-- What a point with k = 7 leaves in the output block. -/
def out1_C_2 (hc0 : ¬cond1_0 i) (hc1 : cond1_1 i) (x0 : Vec F S1024x1024 .f32) (x1 xs0 : Vec F S1024x64 .f32) : Vec F S1024x64 .f32 :=
  VO1_2.read (Elt F) (VO1_2.writes (Elt F) VO1_2.junk (kernelRun1_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Point
variable (c : Dev nD) (t : Fin cfg1.N)

/-- The three cases at grid point `t`: the accumulator afterwards (k = 0; 0 < k < 7; k = 7) and the output block at k = 7. -/
def ptA1 (h0 : t.val % 8 = 0) (h1 : ¬t.val % 8 = 7) : Vec F S1024x64 .f32 :=
  sout1_A_0 c (grid1.coords t) (ms1_0 t) (hs1_0 t) (ms1_1 t) (hs1_1 t) (ms1_2 t) (hs1_2 t) scM1_0 (Memref.isWhole_whole _) ((hcond1_0 t).mpr h0) (mt (hcond1_1 t).mp h1) (iblk1 V c 0 t) (iblk1 V c 1 t)
def ptB1 (h0 : ¬t.val % 8 = 0) (h1 : ¬t.val % 8 = 7) (xs : Vec F S1024x64 .f32) : Vec F S1024x64 .f32 :=
  sout1_B_0 c (grid1.coords t) (ms1_0 t) (hs1_0 t) (ms1_1 t) (hs1_1 t) (ms1_2 t) (hs1_2 t) scM1_0 (Memref.isWhole_whole _) (mt (hcond1_0 t).mp h0) (mt (hcond1_1 t).mp h1) (iblk1 V c 0 t) (iblk1 V c 1 t) xs
def ptC1 (h0 : ¬t.val % 8 = 0) (h1 : t.val % 8 = 7) (xs : Vec F S1024x64 .f32) : Vec F S1024x64 .f32 :=
  sout1_C_0 c (grid1.coords t) (ms1_0 t) (hs1_0 t) (ms1_1 t) (hs1_1 t) (ms1_2 t) (hs1_2 t) scM1_0 (Memref.isWhole_whole _) (mt (hcond1_0 t).mp h0) ((hcond1_1 t).mpr h1) (iblk1 V c 0 t) (iblk1 V c 1 t) xs
def ptO1 (h0 : ¬t.val % 8 = 0) (h1 : t.val % 8 = 7) (xs : Vec F S1024x64 .f32) : Vec F S1024x64 .f32 :=
  out1_C_2 c (grid1.coords t) (ms1_0 t) (hs1_0 t) (ms1_1 t) (hs1_1 t) (ms1_2 t) (hs1_2 t) scM1_0 (Memref.isWhole_whole _) (mt (hcond1_0 t).mp h0) ((hcond1_1 t).mpr h1) (iblk1 V c 0 t) (iblk1 V c 1 t) xs

end Point

/-- What the accumulator holds after grid point number `n`. -/
def accAt1 (c : Dev nD) : (n : ℕ) → n < cfg1.N → Vec F S1024x64 .f32
  | 0, hn => ptA1 V c ⟨0, hn⟩ (Nat.zero_mod _) (by show ¬0 % 8 = 7; decide)
  | n + 1, hn =>
    if h0 : (n + 1) % 8 = 0 then ptA1 V c ⟨n + 1, hn⟩ h0 (by show ¬(n + 1) % 8 = 7; omega)
    else if h1 : (n + 1) % 8 = 7 then ptC1 V c ⟨n + 1, hn⟩ h0 h1 (accAt1 c n (Nat.lt_of_succ_lt hn))
    else ptB1 V c ⟨n + 1, hn⟩ h0 h1 (accAt1 c n (Nat.lt_of_succ_lt hn))

/-- What the point before `t` left in the accumulator. -/
abbrev accPrev1 (c : Dev nD) (t : Fin cfg1.N) : Vec F S1024x64 .f32 :=
  accAt1 V c (t.val - 1) (Nat.lt_of_le_of_lt (Nat.sub_le _ _) t.isLt)

theorem accAt1_A (c : Dev nD) (t : Fin cfg1.N) (h0 : t.val % 8 = 0) (h1 : ¬t.val % 8 = 7) :
    accAt1 V c t.val t.isLt = ptA1 V c t h0 h1 := by
  obtain ⟨n, hn⟩ := t
  cases n with
  | zero => rfl
  | succ n => exact (dif_pos h0).trans rfl

theorem accAt1_B (c : Dev nD) (t : Fin cfg1.N) (h0 : ¬t.val % 8 = 0) (h1 : ¬t.val % 8 = 7) :
    accAt1 V c t.val t.isLt = ptB1 V c t h0 h1 (accPrev1 V c t) := by
  obtain ⟨n, hn⟩ := t
  cases n with
  | zero => exact absurd (Nat.zero_mod _) h0
  | succ n => exact (dif_neg h0).trans ((dif_neg h1).trans rfl)

theorem accAt1_C (c : Dev nD) (t : Fin cfg1.N) (h0 : ¬t.val % 8 = 0) (h1 : t.val % 8 = 7) :
    accAt1 V c t.val t.isLt = ptC1 V c t h0 h1 (accPrev1 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt1 (c : Dev nD) (n : ℕ) (hn : n < cfg1.N) : Vec F S1024x64 .f32 :=
  if h1 : n % 8 = 7 then ptO1 V c ⟨n, hn⟩ (by show ¬n % 8 = 0; omega) h1 (accPrev1 V c ⟨n, hn⟩)
  else VO1_2.read (Elt F) VO1_2.junk

theorem outAt1_C (c : Dev nD) (t : Fin cfg1.N) (h0 : ¬t.val % 8 = 0) (h1 : t.val % 8 = 7) :
    outAt1 V c t.val t.isLt = ptO1 V c t h0 h1 (accPrev1 V c t) :=
  dif_pos h1

/-- The invariant between points: after point `n` the accumulator holds `accAt1 n`; before the first point, anything. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) scM1_0 fullShare (accAt1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- The invariant at any point implies the one that says nothing of the accumulator's contents. -/
theorem PhiS1_forget (c : Dev nD) (n : ℕ) (h : n ≤ cfg1.N) : PhiS1 V c n h ⊢ (Pipeline.ΦA spec1 c : sProp 𝕄) := by
  cases n with
  | zero => exact .rfl
  | succ n =>
    rw [PhiS1_succ, PhiA1_eq]
    iintro ⟨⟨HS0, Hb⟩, Hg⟩
    isplitl [HS0 Hb]
    · isplitl [HS0]
      · iexists _; iexact HS0
      iexact Hb
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t.val t.isLt
  Φ t := PhiS1 V c t.val (Nat.le_of_lt_succ t.isLt)
  q _ := fullShare
  owed _ := 0

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point keeps the invariant: k decides the case, and at k = 0 what the accumulator held is not used. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % 8 = 0
  · have h1 : ¬t.val % 8 = 7 := by omega
    rw [Dat.leavesExact_idle (dat1 V c) 2 t (idleAt1_2 t (mt (hcond1_1 t).mp h1)) (noFlush1_2 t (mt (hcond1_1 t).mp h1))]
    rw [accAt1_A V c t h0 h1]
    unfold ptA1 sout1_A_0; (try dsimp only)
    refine (sep_mono ((PhiS1_forget V c _ _).trans (PhiA1_eq c).le) .rfl).trans ?_
    iintro ⟨⟨⟨HS0, Hb⟩, Hg⟩, Ho, ⟨%d0, H0⟩, ⟨%d1, H1⟩, ⟨%d2, H2⟩⟩
    iapply ((kernelRun1_A c (grid1.coords t) _ _ _ _ _ _ _ _ ((hcond1_0 t).mpr h0) (mt (hcond1_1 t).mp h1) (iblk1 V c 0 t) (iblk1 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover1_A_0 c _ _ _ _ _ _ _ _ _ _ _ _ _)
    iexists _; iexact H2
  · have hz : t.val ≠ 0 := fun h => h0 (by rw [h])
    rw [PhiS1_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt1_C V c t h0 h1, outAt1_C V c t h0 h1]
      unfold ptO1 ptC1 out1_C_2 sout1_C_0; (try dsimp only)
      iintro ⟨⟨⟨HS0, Hb⟩, Hg⟩, Ho, ⟨%d0, H0⟩, ⟨%d1, H1⟩, ⟨%d2, H2⟩⟩
      iapply ((kernelRun1_C c (grid1.coords t) _ _ _ _ _ _ _ _ (mt (hcond1_0 t).mp h0) ((hcond1_1 t).mpr h1) (iblk1 V c 0 t) (iblk1 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover1_C_0 c _ _ _ _ _ _ _ _ _ _ _ _ _ _)
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (mt (hcond1_1 t).mp h1)) (noFlush1_2 t (mt (hcond1_1 t).mp h1))]
      rw [accAt1_B V c t h0 h1]
      unfold ptB1 sout1_B_0; (try dsimp only)
      iintro ⟨⟨⟨HS0, Hb⟩, Hg⟩, Ho, ⟨%d0, H0⟩, ⟨%d1, H1⟩, ⟨%d2, H2⟩⟩
      iapply ((kernelRun1_B c (grid1.coords t) _ _ _ _ _ _ _ _ (mt (hcond1_0 t).mp h0) (mt (hcond1_1 t).mp h1) (iblk1 V c 0 t) (iblk1 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover1_B_0 c _ _ _ _ _ _ _ _ _ _ _ _ _ _)
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]

theorem hout1 (c : Dev nD) : (dat1 V c).Φ (Fin.last cfg1.N) ⊢ (Pipeline.ΦA spec1 c : sProp 𝕄) :=
  PhiS1_forget V c (Fin.last cfg1.N).val (Nat.le_of_lt_succ (Fin.last cfg1.N).isLt)

end

end Cert.KernelIdeal.Fr

end
-- ==== Proof.KI.Reg2Runs.lean ====
import proofs.«114230_j63153199120588_1_alg».proof.Proof.Gen.KernelIdeal.Launch
import proofs.«114230_j63153199120588_1_alg».proof.Proof.Gen.KernelIdeal.Skeleton
import proofs.«114230_j63153199120588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset where the second grid coordinate k is zero. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The accumulator is copied out where k is seven. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev VO2_2 : View sig .tc .vmem S1024x64 .f32 := (Memref.whole cc2_stg2_0 : Memref sig .tc .vmem S1024x64 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
abbrev scM2_0 : Memref sig .tc .vmem S1024x64 .f32 := Memref.whole cc2_scratch0
abbrev VS2_0 : View sig .tc .vmem S1024x64 .f32 := scM2_0.view

variable (c : Dev nD) (i : grid2.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun2_A (hc0 : cond2_0 i) (hc1 : ¬cond2_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun2_B (hc0 : ¬cond2_0 i) (hc1 : ¬cond2_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun2_C (hc0 : ¬cond2_0 i) (hc1 : cond2_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Reg2.lean ====
import proofs.«114230_j63153199120588_1_alg».proof.Proof.KI.Reg2Runs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pieces

variable (c : Dev nD) (i : grid2.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover2_A_0 (hc0 : cond2_0 i) (hc1 : ¬cond2_1 i) (x0 : Vec F S1024x1024 .f32) (x1 : Vec F S1024x64 .f32) (y : S1024x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x64.size (by sl_kernel_rfl) y

/-- What a point with k = 0 leaves in the accumulator: the stored pieces read back as one block. -/
def sout2_A_0 (hc0 : cond2_0 i) (hc1 : ¬cond2_1 i) (x0 : Vec F S1024x1024 .f32) (x1 : Vec F S1024x64 .f32) : Vec F S1024x64 .f32 :=
  VS2_0.read (Elt F) (VS2_0.writes (Elt F) VS2_0.junk (kernelRun2_A c i arg2 harg2 arg3 harg3 arg4 harg4 arg5 harg5 hc0 hc1 x0 x1).2.1)

theorem scover2_B_0 (hc0 : ¬cond2_0 i) (hc1 : ¬cond2_1 i) (x0 : Vec F S1024x1024 .f32) (x1 xs0 : Vec F S1024x64 .f32) (y : S1024x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x64.size (by sl_kernel_rfl) y

def sout2_B_0 (hc0 : ¬cond2_0 i) (hc1 : ¬cond2_1 i) (x0 : Vec F S1024x1024 .f32) (x1 xs0 : Vec F S1024x64 .f32) : Vec F S1024x64 .f32 :=
  VS2_0.read (Elt F) (VS2_0.writes (Elt F) VS2_0.junk (kernelRun2_B c i arg2 harg2 arg3 harg3 arg4 harg4 arg5 harg5 hc0 hc1 x0 x1 xs0).2.1)

theorem scover2_C_0 (hc0 : ¬cond2_0 i) (hc1 : cond2_1 i) (x0 : Vec F S1024x1024 .f32) (x1 xs0 : Vec F S1024x64 .f32) (y : S1024x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x64.size (by sl_kernel_rfl) y

def sout2_C_0 (hc0 : ¬cond2_0 i) (hc1 : cond2_1 i) (x0 : Vec F S1024x1024 .f32) (x1 xs0 : Vec F S1024x64 .f32) : Vec F S1024x64 .f32 :=
  VS2_0.read (Elt F) (VS2_0.writes (Elt F) VS2_0.junk (kernelRun2_C c i arg2 harg2 arg3 harg3 arg4 harg4 arg5 harg5 hc0 hc1 x0 x1 xs0).2.1)

theorem cover2_C_2 (hc0 : ¬cond2_0 i) (hc1 : cond2_1 i) (x0 : Vec F S1024x1024 .f32) (x1 xs0 : Vec F S1024x64 .f32) (y : S1024x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x64.size (by sl_kernel_rfl) y

/-- What a point with k = 7 leaves in the output block. -/
def out2_C_2 (hc0 : ¬cond2_0 i) (hc1 : cond2_1 i) (x0 : Vec F S1024x1024 .f32) (x1 xs0 : Vec F S1024x64 .f32) : Vec F S1024x64 .f32 :=
  VO2_2.read (Elt F) (VO2_2.writes (Elt F) VO2_2.junk (kernelRun2_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section Point
variable (c : Dev nD) (t : Fin cfg2.N)

/-- The three cases at grid point `t`: the accumulator afterwards (k = 0; 0 < k < 7; k = 7) and the output block at k = 7. -/
def ptA2 (h0 : t.val % 8 = 0) (h1 : ¬t.val % 8 = 7) : Vec F S1024x64 .f32 :=
  sout2_A_0 c (grid2.coords t) (ms2_0 t) (hs2_0 t) (ms2_1 t) (hs2_1 t) (ms2_2 t) (hs2_2 t) scM2_0 (Memref.isWhole_whole _) ((hcond2_0 t).mpr h0) (mt (hcond2_1 t).mp h1) (iblk2 V c 0 t) (iblk2 V c 1 t)
def ptB2 (h0 : ¬t.val % 8 = 0) (h1 : ¬t.val % 8 = 7) (xs : Vec F S1024x64 .f32) : Vec F S1024x64 .f32 :=
  sout2_B_0 c (grid2.coords t) (ms2_0 t) (hs2_0 t) (ms2_1 t) (hs2_1 t) (ms2_2 t) (hs2_2 t) scM2_0 (Memref.isWhole_whole _) (mt (hcond2_0 t).mp h0) (mt (hcond2_1 t).mp h1) (iblk2 V c 0 t) (iblk2 V c 1 t) xs
def ptC2 (h0 : ¬t.val % 8 = 0) (h1 : t.val % 8 = 7) (xs : Vec F S1024x64 .f32) : Vec F S1024x64 .f32 :=
  sout2_C_0 c (grid2.coords t) (ms2_0 t) (hs2_0 t) (ms2_1 t) (hs2_1 t) (ms2_2 t) (hs2_2 t) scM2_0 (Memref.isWhole_whole _) (mt (hcond2_0 t).mp h0) ((hcond2_1 t).mpr h1) (iblk2 V c 0 t) (iblk2 V c 1 t) xs
def ptO2 (h0 : ¬t.val % 8 = 0) (h1 : t.val % 8 = 7) (xs : Vec F S1024x64 .f32) : Vec F S1024x64 .f32 :=
  out2_C_2 c (grid2.coords t) (ms2_0 t) (hs2_0 t) (ms2_1 t) (hs2_1 t) (ms2_2 t) (hs2_2 t) scM2_0 (Memref.isWhole_whole _) (mt (hcond2_0 t).mp h0) ((hcond2_1 t).mpr h1) (iblk2 V c 0 t) (iblk2 V c 1 t) xs

end Point

/-- What the accumulator holds after grid point number `n`. -/
def accAt2 (c : Dev nD) : (n : ℕ) → n < cfg2.N → Vec F S1024x64 .f32
  | 0, hn => ptA2 V c ⟨0, hn⟩ (Nat.zero_mod _) (by show ¬0 % 8 = 7; decide)
  | n + 1, hn =>
    if h0 : (n + 1) % 8 = 0 then ptA2 V c ⟨n + 1, hn⟩ h0 (by show ¬(n + 1) % 8 = 7; omega)
    else if h1 : (n + 1) % 8 = 7 then ptC2 V c ⟨n + 1, hn⟩ h0 h1 (accAt2 c n (Nat.lt_of_succ_lt hn))
    else ptB2 V c ⟨n + 1, hn⟩ h0 h1 (accAt2 c n (Nat.lt_of_succ_lt hn))

/-- What the point before `t` left in the accumulator. -/
abbrev accPrev2 (c : Dev nD) (t : Fin cfg2.N) : Vec F S1024x64 .f32 :=
  accAt2 V c (t.val - 1) (Nat.lt_of_le_of_lt (Nat.sub_le _ _) t.isLt)

theorem accAt2_A (c : Dev nD) (t : Fin cfg2.N) (h0 : t.val % 8 = 0) (h1 : ¬t.val % 8 = 7) :
    accAt2 V c t.val t.isLt = ptA2 V c t h0 h1 := by
  obtain ⟨n, hn⟩ := t
  cases n with
  | zero => rfl
  | succ n => exact (dif_pos h0).trans rfl

theorem accAt2_B (c : Dev nD) (t : Fin cfg2.N) (h0 : ¬t.val % 8 = 0) (h1 : ¬t.val % 8 = 7) :
    accAt2 V c t.val t.isLt = ptB2 V c t h0 h1 (accPrev2 V c t) := by
  obtain ⟨n, hn⟩ := t
  cases n with
  | zero => exact absurd (Nat.zero_mod _) h0
  | succ n => exact (dif_neg h0).trans ((dif_neg h1).trans rfl)

theorem accAt2_C (c : Dev nD) (t : Fin cfg2.N) (h0 : ¬t.val % 8 = 0) (h1 : t.val % 8 = 7) :
    accAt2 V c t.val t.isLt = ptC2 V c t h0 h1 (accPrev2 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt2 (c : Dev nD) (n : ℕ) (hn : n < cfg2.N) : Vec F S1024x64 .f32 :=
  if h1 : n % 8 = 7 then ptO2 V c ⟨n, hn⟩ (by show ¬n % 8 = 0; omega) h1 (accPrev2 V c ⟨n, hn⟩)
  else VO2_2.read (Elt F) VO2_2.junk

theorem outAt2_C (c : Dev nD) (t : Fin cfg2.N) (h0 : ¬t.val % 8 = 0) (h1 : t.val % 8 = 7) :
    outAt2 V c t.val t.isLt = ptO2 V c t h0 h1 (accPrev2 V c t) :=
  dif_pos h1

/-- The invariant between points: after point `n` the accumulator holds `accAt2 n`; before the first point, anything. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_succ (c : Dev nD) (n : ℕ) (hn : n < cfg2.N) :
    PhiS2 V c (n + 1) hn = iprop(iprop(owns (c : Thread nD τ) scM2_0 fullShare (accAt2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiA2_eq (c : Dev nD) :
    (Pipeline.ΦA spec2 c : sProp 𝕄)
      = iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- The invariant at any point implies the one that says nothing of the accumulator's contents. -/
theorem PhiS2_forget (c : Dev nD) (n : ℕ) (h : n ≤ cfg2.N) : PhiS2 V c n h ⊢ (Pipeline.ΦA spec2 c : sProp 𝕄) := by
  cases n with
  | zero => exact .rfl
  | succ n =>
    rw [PhiS2_succ, PhiA2_eq]
    iintro ⟨⟨HS0, Hb⟩, Hg⟩
    isplitl [HS0 Hb]
    · isplitl [HS0]
      · iexists _; iexact HS0
      iexact Hb
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t.val t.isLt
  Φ t := PhiS2 V c t.val (Nat.le_of_lt_succ t.isLt)
  q _ := fullShare
  owed _ := 0

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point keeps the invariant: k decides the case, and at k = 0 what the accumulator held is not used. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [PhiS2_castSucc V c t]
  by_cases h0 : t.val % 8 = 0
  · have h1 : ¬t.val % 8 = 7 := by omega
    rw [Dat.leavesExact_idle (dat2 V c) 2 t (idleAt2_2 t (mt (hcond2_1 t).mp h1)) (noFlush2_2 t (mt (hcond2_1 t).mp h1))]
    rw [accAt2_A V c t h0 h1]
    unfold ptA2 sout2_A_0; (try dsimp only)
    refine (sep_mono ((PhiS2_forget V c _ _).trans (PhiA2_eq c).le) .rfl).trans ?_
    iintro ⟨⟨⟨HS0, Hb⟩, Hg⟩, Ho, ⟨%d0, H0⟩, ⟨%d1, H1⟩, ⟨%d2, H2⟩⟩
    iapply ((kernelRun2_A c (grid2.coords t) _ _ _ _ _ _ _ _ ((hcond2_0 t).mpr h0) (mt (hcond2_1 t).mp h1) (iblk2 V c 0 t) (iblk2 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover2_A_0 c _ _ _ _ _ _ _ _ _ _ _ _ _)
    iexists _; iexact H2
  · have hz : t.val ≠ 0 := fun h => h0 (by rw [h])
    rw [PhiS2_pos V c _ _ hz]
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [accAt2_C V c t h0 h1, outAt2_C V c t h0 h1]
      unfold ptO2 ptC2 out2_C_2 sout2_C_0; (try dsimp only)
      iintro ⟨⟨⟨HS0, Hb⟩, Hg⟩, Ho, ⟨%d0, H0⟩, ⟨%d1, H1⟩, ⟨%d2, H2⟩⟩
      iapply ((kernelRun2_C c (grid2.coords t) _ _ _ _ _ _ _ _ (mt (hcond2_0 t).mp h0) ((hcond2_1 t).mpr h1) (iblk2 V c 0 t) (iblk2 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover2_C_0 c _ _ _ _ _ _ _ _ _ _ _ _ _ _)
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (mt (hcond2_1 t).mp h1)) (noFlush2_2 t (mt (hcond2_1 t).mp h1))]
      rw [accAt2_B V c t h0 h1]
      unfold ptB2 sout2_B_0; (try dsimp only)
      iintro ⟨⟨⟨HS0, Hb⟩, Hg⟩, Ho, ⟨%d0, H0⟩, ⟨%d1, H1⟩, ⟨%d2, H2⟩⟩
      iapply ((kernelRun2_B c (grid2.coords t) _ _ _ _ _ _ _ _ (mt (hcond2_0 t).mp h0) (mt (hcond2_1 t).mp h1) (iblk2 V c 0 t) (iblk2 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover2_B_0 c _ _ _ _ _ _ _ _ _ _ _ _ _ _)
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = Pipeline.ΦA spec2 c from rfl]

theorem hout2 (c : Dev nD) : (dat2 V c).Φ (Fin.last cfg2.N) ⊢ (Pipeline.ΦA spec2 c : sProp 𝕄) :=
  PhiS2_forget V c (Fin.last cfg2.N).val (Nat.le_of_lt_succ (Fin.last cfg2.N).isLt)

end

end Cert.KernelIdeal.Fr

end
-- ==== Proof.KI.Reg3Runs.lean ====
import proofs.«114230_j63153199120588_1_alg».proof.Proof.Gen.KernelIdeal.Launch
import proofs.«114230_j63153199120588_1_alg».proof.Proof.Gen.KernelIdeal.Skeleton
import proofs.«114230_j63153199120588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset where the second grid coordinate k is zero. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

/-- The accumulator is copied out where k is seven. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev VO3_2 : View sig .tc .vmem S1024x64 .f32 := (Memref.whole cc3_stg2_0 : Memref sig .tc .vmem S1024x64 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x64 .f32 := win3_2.stage (cfg3.slots t 2)
abbrev hs3_2 (t : Fin cfg3.N) : (ms3_2 t).IsWhole := hstage3_2 ((cfg3.slots t 2).cast nbuf3_2)
abbrev scM3_0 : Memref sig .tc .vmem S1024x64 .f32 := Memref.whole cc3_scratch0
abbrev VS3_0 : View sig .tc .vmem S1024x64 .f32 := scM3_0.view

variable (c : Dev nD) (i : grid3.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun3_A (hc0 : cond3_0 i) (hc1 : ¬cond3_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun3_B (hc0 : ¬cond3_0 i) (hc1 : ¬cond3_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun3_C (hc0 : ¬cond3_0 i) (hc1 : cond3_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Reg3.lean ====
import proofs.«114230_j63153199120588_1_alg».proof.Proof.KI.Reg3Runs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pieces

variable (c : Dev nD) (i : grid3.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover3_A_0 (hc0 : cond3_0 i) (hc1 : ¬cond3_1 i) (x0 : Vec F S1024x1024 .f32) (x1 : Vec F S1024x64 .f32) (y : S1024x64.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x64.size (by sl_kernel_rfl) y

/-- What a point with k = 0 leaves in the accumulator: the stored pieces read back as one block. -/
def sout3_A_0 (hc0 : cond3_0 i) (hc1 : ¬cond3_1 i) (x0 : Vec F S1024x1024 .f32) (x1 : Vec F S1024x64 .f32) : Vec F S1024x64 .f32 :=
  VS3_0.read (Elt F) (VS3_0.writes (Elt F) VS3_0.junk (kernelRun3_A c i arg2 harg2 arg3 harg3 arg4 harg4 arg5 harg5 hc0 hc1 x0 x1).2.1)

theorem scover3_B_0 (hc0 : ¬cond3_0 i) (hc1 : ¬cond3_1 i) (x0 : Vec F S1024x1024 .f32) (x1 xs0 : Vec F S1024x64 .f32) (y : S1024x64.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x64.size (by sl_kernel_rfl) y

def sout3_B_0 (hc0 : ¬cond3_0 i) (hc1 : ¬cond3_1 i) (x0 : Vec F S1024x1024 .f32) (x1 xs0 : Vec F S1024x64 .f32) : Vec F S1024x64 .f32 :=
  VS3_0.read (Elt F) (VS3_0.writes (Elt F) VS3_0.junk (kernelRun3_B c i arg2 harg2 arg3 harg3 arg4 harg4 arg5 harg5 hc0 hc1 x0 x1 xs0).2.1)

theorem scover3_C_0 (hc0 : ¬cond3_0 i) (hc1 : cond3_1 i) (x0 : Vec F S1024x1024 .f32) (x1 xs0 : Vec F S1024x64 .f32) (y : S1024x64.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x64.size (by sl_kernel_rfl) y

def sout3_C_0 (hc0 : ¬cond3_0 i) (hc1 : cond3_1 i) (x0 : Vec F S1024x1024 .f32) (x1 xs0 : Vec F S1024x64 .f32) : Vec F S1024x64 .f32 :=
  VS3_0.read (Elt F) (VS3_0.writes (Elt F) VS3_0.junk (kernelRun3_C c i arg2 harg2 arg3 harg3 arg4 harg4 arg5 harg5 hc0 hc1 x0 x1 xs0).2.1)

theorem cover3_C_2 (hc0 : ¬cond3_0 i) (hc1 : cond3_1 i) (x0 : Vec F S1024x1024 .f32) (x1 xs0 : Vec F S1024x64 .f32) (y : S1024x64.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x64.size (by sl_kernel_rfl) y

/-- What a point with k = 7 leaves in the output block. -/
def out3_C_2 (hc0 : ¬cond3_0 i) (hc1 : cond3_1 i) (x0 : Vec F S1024x1024 .f32) (x1 xs0 : Vec F S1024x64 .f32) : Vec F S1024x64 .f32 :=
  VO3_2.read (Elt F) (VO3_2.writes (Elt F) VO3_2.junk (kernelRun3_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section Point
variable (c : Dev nD) (t : Fin cfg3.N)

/-- The three cases at grid point `t`: the accumulator afterwards (k = 0; 0 < k < 7; k = 7) and the output block at k = 7. -/
def ptA3 (h0 : t.val % 8 = 0) (h1 : ¬t.val % 8 = 7) : Vec F S1024x64 .f32 :=
  sout3_A_0 c (grid3.coords t) (ms3_0 t) (hs3_0 t) (ms3_1 t) (hs3_1 t) (ms3_2 t) (hs3_2 t) scM3_0 (Memref.isWhole_whole _) ((hcond3_0 t).mpr h0) (mt (hcond3_1 t).mp h1) (iblk3 V c 0 t) (iblk3 V c 1 t)
def ptB3 (h0 : ¬t.val % 8 = 0) (h1 : ¬t.val % 8 = 7) (xs : Vec F S1024x64 .f32) : Vec F S1024x64 .f32 :=
  sout3_B_0 c (grid3.coords t) (ms3_0 t) (hs3_0 t) (ms3_1 t) (hs3_1 t) (ms3_2 t) (hs3_2 t) scM3_0 (Memref.isWhole_whole _) (mt (hcond3_0 t).mp h0) (mt (hcond3_1 t).mp h1) (iblk3 V c 0 t) (iblk3 V c 1 t) xs
def ptC3 (h0 : ¬t.val % 8 = 0) (h1 : t.val % 8 = 7) (xs : Vec F S1024x64 .f32) : Vec F S1024x64 .f32 :=
  sout3_C_0 c (grid3.coords t) (ms3_0 t) (hs3_0 t) (ms3_1 t) (hs3_1 t) (ms3_2 t) (hs3_2 t) scM3_0 (Memref.isWhole_whole _) (mt (hcond3_0 t).mp h0) ((hcond3_1 t).mpr h1) (iblk3 V c 0 t) (iblk3 V c 1 t) xs
def ptO3 (h0 : ¬t.val % 8 = 0) (h1 : t.val % 8 = 7) (xs : Vec F S1024x64 .f32) : Vec F S1024x64 .f32 :=
  out3_C_2 c (grid3.coords t) (ms3_0 t) (hs3_0 t) (ms3_1 t) (hs3_1 t) (ms3_2 t) (hs3_2 t) scM3_0 (Memref.isWhole_whole _) (mt (hcond3_0 t).mp h0) ((hcond3_1 t).mpr h1) (iblk3 V c 0 t) (iblk3 V c 1 t) xs

end Point

/-- What the accumulator holds after grid point number `n`. -/
def accAt3 (c : Dev nD) : (n : ℕ) → n < cfg3.N → Vec F S1024x64 .f32
  | 0, hn => ptA3 V c ⟨0, hn⟩ (Nat.zero_mod _) (by show ¬0 % 8 = 7; decide)
  | n + 1, hn =>
    if h0 : (n + 1) % 8 = 0 then ptA3 V c ⟨n + 1, hn⟩ h0 (by show ¬(n + 1) % 8 = 7; omega)
    else if h1 : (n + 1) % 8 = 7 then ptC3 V c ⟨n + 1, hn⟩ h0 h1 (accAt3 c n (Nat.lt_of_succ_lt hn))
    else ptB3 V c ⟨n + 1, hn⟩ h0 h1 (accAt3 c n (Nat.lt_of_succ_lt hn))

/-- What the point before `t` left in the accumulator. -/
abbrev accPrev3 (c : Dev nD) (t : Fin cfg3.N) : Vec F S1024x64 .f32 :=
  accAt3 V c (t.val - 1) (Nat.lt_of_le_of_lt (Nat.sub_le _ _) t.isLt)

theorem accAt3_A (c : Dev nD) (t : Fin cfg3.N) (h0 : t.val % 8 = 0) (h1 : ¬t.val % 8 = 7) :
    accAt3 V c t.val t.isLt = ptA3 V c t h0 h1 := by
  obtain ⟨n, hn⟩ := t
  cases n with
  | zero => rfl
  | succ n => exact (dif_pos h0).trans rfl

theorem accAt3_B (c : Dev nD) (t : Fin cfg3.N) (h0 : ¬t.val % 8 = 0) (h1 : ¬t.val % 8 = 7) :
    accAt3 V c t.val t.isLt = ptB3 V c t h0 h1 (accPrev3 V c t) := by
  obtain ⟨n, hn⟩ := t
  cases n with
  | zero => exact absurd (Nat.zero_mod _) h0
  | succ n => exact (dif_neg h0).trans ((dif_neg h1).trans rfl)

theorem accAt3_C (c : Dev nD) (t : Fin cfg3.N) (h0 : ¬t.val % 8 = 0) (h1 : t.val % 8 = 7) :
    accAt3 V c t.val t.isLt = ptC3 V c t h0 h1 (accPrev3 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt3 (c : Dev nD) (n : ℕ) (hn : n < cfg3.N) : Vec F S1024x64 .f32 :=
  if h1 : n % 8 = 7 then ptO3 V c ⟨n, hn⟩ (by show ¬n % 8 = 0; omega) h1 (accPrev3 V c ⟨n, hn⟩)
  else VO3_2.read (Elt F) VO3_2.junk

theorem outAt3_C (c : Dev nD) (t : Fin cfg3.N) (h0 : ¬t.val % 8 = 0) (h1 : t.val % 8 = 7) :
    outAt3 V c t.val t.isLt = ptO3 V c t h0 h1 (accPrev3 V c t) :=
  dif_pos h1

/-- The invariant between points: after point `n` the accumulator holds `accAt3 n`; before the first point, anything. -/
def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_succ (c : Dev nD) (n : ℕ) (hn : n < cfg3.N) :
    PhiS3 V c (n + 1) hn = iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- The invariant at any point implies the one that says nothing of the accumulator's contents. -/
theorem PhiS3_forget (c : Dev nD) (n : ℕ) (h : n ≤ cfg3.N) : PhiS3 V c n h ⊢ (Pipeline.ΦA spec3 c : sProp 𝕄) := by
  cases n with
  | zero => exact .rfl
  | succ n =>
    rw [PhiS3_succ, PhiA3_eq]
    iintro ⟨⟨HS0, Hb⟩, Hg⟩
    isplitl [HS0 Hb]
    · isplitl [HS0]
      · iexists _; iexact HS0
      iexact Hb
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t.val t.isLt
  Φ t := PhiS3 V c t.val (Nat.le_of_lt_succ t.isLt)
  q _ := fullShare
  owed _ := 0

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3 V c t.val t.isLt := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point keeps the invariant: k decides the case, and at k = 0 what the accumulator held is not used. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [PhiS3_castSucc V c t]
  by_cases h0 : t.val % 8 = 0
  · have h1 : ¬t.val % 8 = 7 := by omega
    rw [Dat.leavesExact_idle (dat3 V c) 2 t (idleAt3_2 t (mt (hcond3_1 t).mp h1)) (noFlush3_2 t (mt (hcond3_1 t).mp h1))]
    rw [accAt3_A V c t h0 h1]
    unfold ptA3 sout3_A_0; (try dsimp only)
    refine (sep_mono ((PhiS3_forget V c _ _).trans (PhiA3_eq c).le) .rfl).trans ?_
    iintro ⟨⟨⟨HS0, Hb⟩, Hg⟩, Ho, ⟨%d0, H0⟩, ⟨%d1, H1⟩, ⟨%d2, H2⟩⟩
    iapply ((kernelRun3_A c (grid3.coords t) _ _ _ _ _ _ _ _ ((hcond3_0 t).mpr h0) (mt (hcond3_1 t).mp h1) (iblk3 V c 0 t) (iblk3 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover3_A_0 c _ _ _ _ _ _ _ _ _ _ _ _ _)
    iexists _; iexact H2
  · have hz : t.val ≠ 0 := fun h => h0 (by rw [h])
    rw [PhiS3_pos V c _ _ hz]
    by_cases h1 : t.val % 8 = 7
    · rw [show (dat3 V c).leavesExact 2 t = owns (c : Thread nD τ) (ms3_2 t) fullShare ((dat3 V c).after 2 t) from by
        unfold Dat.leavesExact; rw [liveAt3_2 t ((hcond3_1 t).mpr h1)], after3_2]
      rw [accAt3_C V c t h0 h1, outAt3_C V c t h0 h1]
      unfold ptO3 ptC3 out3_C_2 sout3_C_0; (try dsimp only)
      iintro ⟨⟨⟨HS0, Hb⟩, Hg⟩, Ho, ⟨%d0, H0⟩, ⟨%d1, H1⟩, ⟨%d2, H2⟩⟩
      iapply ((kernelRun3_C c (grid3.coords t) _ _ _ _ _ _ _ _ (mt (hcond3_0 t).mp h0) ((hcond3_1 t).mpr h1) (iblk3 V c 0 t) (iblk3 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover3_C_0 c _ _ _ _ _ _ _ _ _ _ _ _ _ _)
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (mt (hcond3_1 t).mp h1)) (noFlush3_2 t (mt (hcond3_1 t).mp h1))]
      rw [accAt3_B V c t h0 h1]
      unfold ptB3 sout3_B_0; (try dsimp only)
      iintro ⟨⟨⟨HS0, Hb⟩, Hg⟩, Ho, ⟨%d0, H0⟩, ⟨%d1, H1⟩, ⟨%d2, H2⟩⟩
      iapply ((kernelRun3_B c (grid3.coords t) _ _ _ _ _ _ _ _ (mt (hcond3_0 t).mp h0) (mt (hcond3_1 t).mp h1) (iblk3 V c 0 t) (iblk3 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover3_B_0 c _ _ _ _ _ _ _ _ _ _ _ _ _ _)
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Pipeline.ΦA spec3 c from rfl]

theorem hout3 (c : Dev nD) : (dat3 V c).Φ (Fin.last cfg3.N) ⊢ (Pipeline.ΦA spec3 c : sProp 𝕄) :=
  PhiS3_forget V c (Fin.last cfg3.N).val (Nat.le_of_lt_succ (Fin.last cfg3.N).isLt)

end

end Cert.KernelIdeal.Fr

end
-- ==== Proof.KI.Reg4Runs.lean ====
import proofs.«114230_j63153199120588_1_alg».proof.Proof.Gen.KernelIdeal.Launch
import proofs.«114230_j63153199120588_1_alg».proof.Proof.Gen.KernelIdeal.Skeleton
import proofs.«114230_j63153199120588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset where the second grid coordinate k is zero. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)

/-- The accumulator is copied out where k is seven. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

abbrev VO4_2 : View sig .tc .vmem S1024x64 .f32 := (Memref.whole cc4_stg2_0 : Memref sig .tc .vmem S1024x64 .f32).view
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x64 .f32 := win4_2.stage (cfg4.slots t 2)
abbrev hs4_2 (t : Fin cfg4.N) : (ms4_2 t).IsWhole := hstage4_2 ((cfg4.slots t 2).cast nbuf4_2)
abbrev scM4_0 : Memref sig .tc .vmem S1024x64 .f32 := Memref.whole cc4_scratch0
abbrev VS4_0 : View sig .tc .vmem S1024x64 .f32 := scM4_0.view

variable (c : Dev nD) (i : grid4.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

set_option maxHeartbeats 1000000 in
/-- k = 0: the accumulator, at anything, is set to zero and the block product added. -/
noncomputable def kernelRun4_A (hc0 : cond4_0 i) (hc1 : ¬cond4_1 i) (x0 : Vec F S1024x1024 .f32) (x1 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 7: the block product is added to the accumulator the point before left. -/
noncomputable def kernelRun4_B (hc0 : ¬cond4_0 i) (hc1 : ¬cond4_1 i) (x0 : Vec F S1024x1024 .f32) (x1 xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 7: the block product is added likewise, and the sum is copied into the output block. -/
noncomputable def kernelRun4_C (hc0 : ¬cond4_0 i) (hc1 : cond4_1 i) (x0 : Vec F S1024x1024 .f32) (x1 xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Reg4.lean ====
import proofs.«114230_j63153199120588_1_alg».proof.Proof.KI.Reg4Runs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pieces

variable (c : Dev nD) (i : grid4.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem scover4_A_0 (hc0 : cond4_0 i) (hc1 : ¬cond4_1 i) (x0 : Vec F S1024x1024 .f32) (x1 : Vec F S1024x64 .f32) (y : S1024x64.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x64.size (by sl_kernel_rfl) y

/-- What a point with k = 0 leaves in the accumulator: the stored pieces read back as one block. -/
def sout4_A_0 (hc0 : cond4_0 i) (hc1 : ¬cond4_1 i) (x0 : Vec F S1024x1024 .f32) (x1 : Vec F S1024x64 .f32) : Vec F S1024x64 .f32 :=
  VS4_0.read (Elt F) (VS4_0.writes (Elt F) VS4_0.junk (kernelRun4_A c i arg2 harg2 arg3 harg3 arg4 harg4 arg5 harg5 hc0 hc1 x0 x1).2.1)

theorem scover4_B_0 (hc0 : ¬cond4_0 i) (hc1 : ¬cond4_1 i) (x0 : Vec F S1024x1024 .f32) (x1 xs0 : Vec F S1024x64 .f32) (y : S1024x64.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x64.size (by sl_kernel_rfl) y

def sout4_B_0 (hc0 : ¬cond4_0 i) (hc1 : ¬cond4_1 i) (x0 : Vec F S1024x1024 .f32) (x1 xs0 : Vec F S1024x64 .f32) : Vec F S1024x64 .f32 :=
  VS4_0.read (Elt F) (VS4_0.writes (Elt F) VS4_0.junk (kernelRun4_B c i arg2 harg2 arg3 harg3 arg4 harg4 arg5 harg5 hc0 hc1 x0 x1 xs0).2.1)

theorem scover4_C_0 (hc0 : ¬cond4_0 i) (hc1 : cond4_1 i) (x0 : Vec F S1024x1024 .f32) (x1 xs0 : Vec F S1024x64 .f32) (y : S1024x64.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x64.size (by sl_kernel_rfl) y

def sout4_C_0 (hc0 : ¬cond4_0 i) (hc1 : cond4_1 i) (x0 : Vec F S1024x1024 .f32) (x1 xs0 : Vec F S1024x64 .f32) : Vec F S1024x64 .f32 :=
  VS4_0.read (Elt F) (VS4_0.writes (Elt F) VS4_0.junk (kernelRun4_C c i arg2 harg2 arg3 harg3 arg4 harg4 arg5 harg5 hc0 hc1 x0 x1 xs0).2.1)

theorem cover4_C_2 (hc0 : ¬cond4_0 i) (hc1 : cond4_1 i) (x0 : Vec F S1024x1024 .f32) (x1 xs0 : Vec F S1024x64 .f32) (y : S1024x64.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x64.size (by sl_kernel_rfl) y

/-- What a point with k = 7 leaves in the output block. -/
def out4_C_2 (hc0 : ¬cond4_0 i) (hc1 : cond4_1 i) (x0 : Vec F S1024x1024 .f32) (x1 xs0 : Vec F S1024x64 .f32) : Vec F S1024x64 .f32 :=
  VO4_2.read (Elt F) (VO4_2.writes (Elt F) VO4_2.junk (kernelRun4_C c i arg2 harg2 arg3 harg3 arg4 harg4 arg5 harg5 hc0 hc1 x0 x1 xs0).1)

end Pieces

section
variable (V : (c : Dev nD) → (b : Ref sig .tc) → Buf (Elt F) ((c : Thread nD τ).loc b))

/-- Window `w`'s block at grid point `t`, read out of its array `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

section Point
variable (c : Dev nD) (t : Fin cfg4.N)

/-- The three cases at grid point `t`: the accumulator afterwards (k = 0; 0 < k < 7; k = 7) and the output block at k = 7. -/
def ptA4 (h0 : t.val % 8 = 0) (h1 : ¬t.val % 8 = 7) : Vec F S1024x64 .f32 :=
  sout4_A_0 c (grid4.coords t) (ms4_0 t) (hs4_0 t) (ms4_1 t) (hs4_1 t) (ms4_2 t) (hs4_2 t) scM4_0 (Memref.isWhole_whole _) ((hcond4_0 t).mpr h0) (mt (hcond4_1 t).mp h1) (iblk4 V c 0 t) (iblk4 V c 1 t)
def ptB4 (h0 : ¬t.val % 8 = 0) (h1 : ¬t.val % 8 = 7) (xs : Vec F S1024x64 .f32) : Vec F S1024x64 .f32 :=
  sout4_B_0 c (grid4.coords t) (ms4_0 t) (hs4_0 t) (ms4_1 t) (hs4_1 t) (ms4_2 t) (hs4_2 t) scM4_0 (Memref.isWhole_whole _) (mt (hcond4_0 t).mp h0) (mt (hcond4_1 t).mp h1) (iblk4 V c 0 t) (iblk4 V c 1 t) xs
def ptC4 (h0 : ¬t.val % 8 = 0) (h1 : t.val % 8 = 7) (xs : Vec F S1024x64 .f32) : Vec F S1024x64 .f32 :=
  sout4_C_0 c (grid4.coords t) (ms4_0 t) (hs4_0 t) (ms4_1 t) (hs4_1 t) (ms4_2 t) (hs4_2 t) scM4_0 (Memref.isWhole_whole _) (mt (hcond4_0 t).mp h0) ((hcond4_1 t).mpr h1) (iblk4 V c 0 t) (iblk4 V c 1 t) xs
def ptO4 (h0 : ¬t.val % 8 = 0) (h1 : t.val % 8 = 7) (xs : Vec F S1024x64 .f32) : Vec F S1024x64 .f32 :=
  out4_C_2 c (grid4.coords t) (ms4_0 t) (hs4_0 t) (ms4_1 t) (hs4_1 t) (ms4_2 t) (hs4_2 t) scM4_0 (Memref.isWhole_whole _) (mt (hcond4_0 t).mp h0) ((hcond4_1 t).mpr h1) (iblk4 V c 0 t) (iblk4 V c 1 t) xs

end Point

/-- What the accumulator holds after grid point number `n`. -/
def accAt4 (c : Dev nD) : (n : ℕ) → n < cfg4.N → Vec F S1024x64 .f32
  | 0, hn => ptA4 V c ⟨0, hn⟩ (Nat.zero_mod _) (by show ¬0 % 8 = 7; decide)
  | n + 1, hn =>
    if h0 : (n + 1) % 8 = 0 then ptA4 V c ⟨n + 1, hn⟩ h0 (by show ¬(n + 1) % 8 = 7; omega)
    else if h1 : (n + 1) % 8 = 7 then ptC4 V c ⟨n + 1, hn⟩ h0 h1 (accAt4 c n (Nat.lt_of_succ_lt hn))
    else ptB4 V c ⟨n + 1, hn⟩ h0 h1 (accAt4 c n (Nat.lt_of_succ_lt hn))

/-- What the point before `t` left in the accumulator. -/
abbrev accPrev4 (c : Dev nD) (t : Fin cfg4.N) : Vec F S1024x64 .f32 :=
  accAt4 V c (t.val - 1) (Nat.lt_of_le_of_lt (Nat.sub_le _ _) t.isLt)

theorem accAt4_A (c : Dev nD) (t : Fin cfg4.N) (h0 : t.val % 8 = 0) (h1 : ¬t.val % 8 = 7) :
    accAt4 V c t.val t.isLt = ptA4 V c t h0 h1 := by
  obtain ⟨n, hn⟩ := t
  cases n with
  | zero => rfl
  | succ n => exact (dif_pos h0).trans rfl

theorem accAt4_B (c : Dev nD) (t : Fin cfg4.N) (h0 : ¬t.val % 8 = 0) (h1 : ¬t.val % 8 = 7) :
    accAt4 V c t.val t.isLt = ptB4 V c t h0 h1 (accPrev4 V c t) := by
  obtain ⟨n, hn⟩ := t
  cases n with
  | zero => exact absurd (Nat.zero_mod _) h0
  | succ n => exact (dif_neg h0).trans ((dif_neg h1).trans rfl)

theorem accAt4_C (c : Dev nD) (t : Fin cfg4.N) (h0 : ¬t.val % 8 = 0) (h1 : t.val % 8 = 7) :
    accAt4 V c t.val t.isLt = ptC4 V c t h0 h1 (accPrev4 V c t) := by
  obtain ⟨n, hn⟩ := t
  cases n with
  | zero => exact absurd (Nat.zero_mod _) h0
  | succ n => exact (dif_neg h0).trans ((dif_pos h1).trans rfl)

/-- The output block after grid point `n`: at k = 7 the accumulated sum; elsewhere it is never consulted. -/
def outAt4 (c : Dev nD) (n : ℕ) (hn : n < cfg4.N) : Vec F S1024x64 .f32 :=
  if h1 : n % 8 = 7 then ptO4 V c ⟨n, hn⟩ (by show ¬n % 8 = 0; omega) h1 (accPrev4 V c ⟨n, hn⟩)
  else VO4_2.read (Elt F) VO4_2.junk

theorem outAt4_C (c : Dev nD) (t : Fin cfg4.N) (h0 : ¬t.val % 8 = 0) (h1 : t.val % 8 = 7) :
    outAt4 V c t.val t.isLt = ptO4 V c t h0 h1 (accPrev4 V c t) :=
  dif_pos h1

/-- The invariant between points: after point `n` the accumulator holds `accAt4 n`; before the first point, anything. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn) ∗ Pipeline.scopedRestBut (Ix := Unit) (Name := ℕ) (U := UR sig nD τ) (Lvl := ℕ) (Val := Elt F) spec4 c [cc4_scratch0]) ∗ (∃ r, prngReg c r))

theorem PhiS4_succ (c : Dev nD) (n : ℕ) (hn : n < cfg4.N) :
    PhiS4 V c (n + 1) hn = iprop(iprop(owns (c : Thread nD τ) scM4_0 fullShare (accAt4 V c n hn) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare (accAt4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-- The invariant at any point implies the one that says nothing of the accumulator's contents. -/
theorem PhiS4_forget (c : Dev nD) (n : ℕ) (h : n ≤ cfg4.N) : PhiS4 V c n h ⊢ (Pipeline.ΦA spec4 c : sProp 𝕄) := by
  cases n with
  | zero => exact .rfl
  | succ n =>
    rw [PhiS4_succ, PhiA4_eq]
    iintro ⟨⟨HS0, Hb⟩, Hg⟩
    isplitl [HS0 Hb]
    · isplitl [HS0]
      · iexists _; iexact HS0
      iexact Hb
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t.val t.isLt
  Φ t := PhiS4 V c t.val (Nat.le_of_lt_succ t.isLt)
  q _ := fullShare
  owed _ := 0

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point keeps the invariant: k decides the case, and at k = 0 what the accumulator held is not used. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [PhiS4_castSucc V c t]
  by_cases h0 : t.val % 8 = 0
  · have h1 : ¬t.val % 8 = 7 := by omega
    rw [Dat.leavesExact_idle (dat4 V c) 2 t (idleAt4_2 t (mt (hcond4_1 t).mp h1)) (noFlush4_2 t (mt (hcond4_1 t).mp h1))]
    rw [accAt4_A V c t h0 h1]
    unfold ptA4 sout4_A_0; (try dsimp only)
    refine (sep_mono ((PhiS4_forget V c _ _).trans (PhiA4_eq c).le) .rfl).trans ?_
    iintro ⟨⟨⟨HS0, Hb⟩, Hg⟩, Ho, ⟨%d0, H0⟩, ⟨%d1, H1⟩, ⟨%d2, H2⟩⟩
    iapply ((kernelRun4_A c (grid4.coords t) _ _ _ _ _ _ _ _ ((hcond4_0 t).mpr h0) (mt (hcond4_1 t).mp h1) (iblk4 V c 0 t) (iblk4 V c 1 t)).2.2 _ Set.univ _)
    iframe H0 H1 H2 HS0
    iintro ⟨H0, H1, H2, ⟨%es0, HS0⟩⟩
    iframe Hb Hg Ho H0 H1
    isplitl [HS0]
    · unfold owns; iexists _; isplitr
      swap; · iexact HS0
      ipureintro; exact View.read_writes_of_cover _ _ _ _ _ (scover4_A_0 c _ _ _ _ _ _ _ _ _ _ _ _ _)
    iexists _; iexact H2
  · have hz : t.val ≠ 0 := fun h => h0 (by rw [h])
    rw [PhiS4_pos V c _ _ hz]
    by_cases h1 : t.val % 8 = 7
    · rw [show (dat4 V c).leavesExact 2 t = owns (c : Thread nD τ) (ms4_2 t) fullShare ((dat4 V c).after 2 t) from by
        unfold Dat.leavesExact; rw [liveAt4_2 t ((hcond4_1 t).mpr h1)], after4_2]
      rw [accAt4_C V c t h0 h1, outAt4_C V c t h0 h1]
      unfold ptO4 ptC4 out4_C_2 sout4_C_0; (try dsimp only)
      iintro ⟨⟨⟨HS0, Hb⟩, Hg⟩, Ho, ⟨%d0, H0⟩, ⟨%d1, H1⟩, ⟨%d2, H2⟩⟩
      iapply ((kernelRun4_C c (grid4.coords t) _ _ _ _ _ _ _ _ (mt (hcond4_0 t).mp h0) ((hcond4_1 t).mpr h1) (iblk4 V c 0 t) (iblk4 V c 1 t) _).2.2 Set.univ _)
      iframe H0 H1 HS0
      isplitl [H2]; · iexists _; iexact H2
      iintro ⟨H0, H1, ⟨%e2, H2⟩, ⟨%es0, HS0⟩⟩
      iframe Hb Hg Ho H0 H1
      isplitl [HS0]
      · unfold owns; iexists _; isplitr
        swap; · iexact HS0
        ipureintro; exact View.read_writes_of_cover _ _ _ _ _ (scover4_C_0 c _ _ _ _ _ _ _ _ _ _ _ _ _ _)
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (mt (hcond4_1 t).mp h1)) (noFlush4_2 t (mt (hcond4_1 t).mp h1))]
      rw [accAt4_B V c t h0 h1]
      unfold ptB4 sout4_B_0; (try dsimp only)
      iintro ⟨⟨⟨HS0, Hb⟩, Hg⟩, Ho, ⟨%d0, H0⟩, ⟨%d1, H1⟩, ⟨%d2, H2⟩⟩
      iapply ((kernelRun4_B c (grid4.coords t) _ _ _ _ _ _ _ _ (mt (hcond4_0 t).mp h0) (mt (hcond4_1 t).mp h1) (iblk4 V c 0 t) (iblk4 V c 1 t) _).2.2 _ Set.univ _)
      iframe H0 H1 H2 HS0
      iintro ⟨H0, H1, H2, ⟨%es0, HS0⟩⟩
      iframe Hb Hg Ho H0 H1
      isplitl [HS0]
      · unfold owns; iexists _; isplitr
        swap; · iexact HS0
        ipureintro; exact View.read_writes_of_cover _ _ _ _ _ (scover4_B_0 c _ _ _ _ _ _ _ _ _ _ _ _ _ _)
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Pipeline.ΦA spec4 c from rfl]

theorem hout4 (c : Dev nD) : (dat4 V c).Φ (Fin.last cfg4.N) ⊢ (Pipeline.ΦA spec4 c : sProp 𝕄) :=
  PhiS4_forget V c (Fin.last cfg4.N).val (Nat.le_of_lt_succ (Fin.last cfg4.N).isLt)

end

end Cert.KernelIdeal.Fr

end
-- ==== Proof.KI.Run.lean ====
import proofs.«114230_j63153199120588_1_alg».proof.Proof.KI.Reg0
import proofs.«114230_j63153199120588_1_alg».proof.Proof.KI.Reg1
import proofs.«114230_j63153199120588_1_alg».proof.Proof.KI.Reg2
import proofs.«114230_j63153199120588_1_alg».proof.Proof.KI.Reg3
import proofs.«114230_j63153199120588_1_alg».proof.Proof.KI.Reg4
import proofs.«114230_j63153199120588_1_alg».proof.Proof.Gen.KernelIdeal.Regions
import Idealize.ShloMosaic.Lib.Pipeline.RegionsLoop
import Idealize.ShloMosaic.Lib.Pipeline.FrameSuffix

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev rd (W : Dev nD → Valuation τ sig (Elt F)) : (c : Dev nD) → (b : Ref sig .tc) → Buf (Elt F) ((c : Thread nD τ).loc b) := fun c b => W c b

def W1 (c : Dev nD) : Valuation τ sig (Elt F) :=
  Pipeline.withArrays spec0 c (W0 m ρ c) fun w => (dat0 (rd (W0 m ρ)) c).arrAt w cfg0.N
theorem W1_arr (c : Dev nD) (w : Fin cfg0.W) :
    W1 m ρ c (Proc.devRef .tc (Pipeline.arrRef spec0 w)) = (dat0 (rd (W0 m ρ)) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev W2 : Dev nD → Valuation τ sig (Elt F) := fun c => StableHlo.after hostOps1 (W1 m ρ c)

theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

def W3 (c : Dev nD) : Valuation τ sig (Elt F) :=
  Pipeline.withArrays spec1 c (W2 m ρ c) fun w => (dat1 (rd (W2 m ρ)) c).arrAt w cfg1.N
theorem W3_arr (c : Dev nD) (w : Fin cfg1.W) :
    W3 m ρ c (Proc.devRef .tc (Pipeline.arrRef spec1 w)) = (dat1 (rd (W2 m ρ)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev W4 : Dev nD → Valuation τ sig (Elt F) := fun c => StableHlo.after hostOps2 (W3 m ρ c)

theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

def W5 (c : Dev nD) : Valuation τ sig (Elt F) :=
  Pipeline.withArrays spec2 c (W4 m ρ c) fun w => (dat2 (rd (W4 m ρ)) c).arrAt w cfg2.N
theorem W5_arr (c : Dev nD) (w : Fin cfg2.W) :
    W5 m ρ c (Proc.devRef .tc (Pipeline.arrRef spec2 w)) = (dat2 (rd (W4 m ρ)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev W6 : Dev nD → Valuation τ sig (Elt F) := fun c => StableHlo.after hostOps3 (W5 m ρ c)

theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h

def W7 (c : Dev nD) : Valuation τ sig (Elt F) :=
  Pipeline.withArrays spec3 c (W6 m ρ c) fun w => (dat3 (rd (W6 m ρ)) c).arrAt w cfg3.N
theorem W7_arr (c : Dev nD) (w : Fin cfg3.W) :
    W7 m ρ c (Proc.devRef .tc (Pipeline.arrRef spec3 w)) = (dat3 (rd (W6 m ρ)) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev W8 : Dev nD → Valuation τ sig (Elt F) := fun c => StableHlo.after hostOps4 (W7 m ρ c)

theorem W8_of (c : Dev nD) (r : Ref sig .tc) (h : r ∉ hostOps4_W) :
    W8 m ρ c (Proc.devRef .tc r) = W7 m ρ c (Proc.devRef .tc r) :=
  StableHlo.after_of_writes_sub hostOps4 _ hostOps4_writes h

def W9 (c : Dev nD) : Valuation τ sig (Elt F) :=
  Pipeline.withArrays spec4 c (W8 m ρ c) fun w => (dat4 (rd (W8 m ρ)) c).arrAt w cfg4.N
theorem W9_arr (c : Dev nD) (w : Fin cfg4.W) :
    W9 m ρ c (Proc.devRef .tc (Pipeline.arrRef spec4 w)) = (dat4 (rd (W8 m ρ)) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

abbrev W10 : Dev nD → Valuation τ sig (Elt F) := fun c => StableHlo.after hostOps5 (W9 m ρ c)

theorem W10_of (c : Dev nD) (r : Ref sig .tc) (h : r ∉ hostOps5_W) :
    W10 m ρ c (Proc.devRef .tc r) = W9 m ρ c (Proc.devRef .tc r) :=
  StableHlo.after_of_writes_sub hostOps5 _ hostOps5_writes h

/-- Region 0 changes only its output array. -/
theorem W1_keep (c : Dev nD) (r : Ref sig .tc) (h : r ≠ main_v0) : W1 m ρ c (Proc.devRef .tc r) = W0 m ρ c (Proc.devRef .tc r) := by
  by_cases hw : ∀ w, Pipeline.arrRef spec0 w ≠ r
  · exact W1_of_ne m ρ c r hw
  · obtain ⟨w, rfl⟩ := not_forall_not.mp hw
    match w with
    | ⟨0, _⟩ => exact (W1_arr m ρ c 0).trans (((dat0 (rd (W0 m ρ)) c).arrAt_in 0 rfl _))
    | ⟨1, _⟩ => exact (W1_arr m ρ c 1).trans (((dat0 (rd (W0 m ρ)) c).arrAt_in 1 rfl _))
    | ⟨2, _⟩ => exact absurd rfl h

theorem W3_keep (c : Dev nD) (r : Ref sig .tc) (h : r ≠ main_v5) : W3 m ρ c (Proc.devRef .tc r) = W2 m ρ c (Proc.devRef .tc r) := by
  by_cases hw : ∀ w, Pipeline.arrRef spec1 w ≠ r
  · exact W3_of_ne m ρ c r hw
  · obtain ⟨w, rfl⟩ := not_forall_not.mp hw
    match w with
    | ⟨0, _⟩ => exact (W3_arr m ρ c 0).trans (((dat1 (rd (W2 m ρ)) c).arrAt_in 0 rfl _))
    | ⟨1, _⟩ => exact (W3_arr m ρ c 1).trans (((dat1 (rd (W2 m ρ)) c).arrAt_in 1 rfl _))
    | ⟨2, _⟩ => exact absurd rfl h

theorem W5_keep (c : Dev nD) (r : Ref sig .tc) (h : r ≠ main_v11) : W5 m ρ c (Proc.devRef .tc r) = W4 m ρ c (Proc.devRef .tc r) := by
  by_cases hw : ∀ w, Pipeline.arrRef spec2 w ≠ r
  · exact W5_of_ne m ρ c r hw
  · obtain ⟨w, rfl⟩ := not_forall_not.mp hw
    match w with
    | ⟨0, _⟩ => exact (W5_arr m ρ c 0).trans (((dat2 (rd (W4 m ρ)) c).arrAt_in 0 rfl _))
    | ⟨1, _⟩ => exact (W5_arr m ρ c 1).trans (((dat2 (rd (W4 m ρ)) c).arrAt_in 1 rfl _))
    | ⟨2, _⟩ => exact absurd rfl h

theorem W7_keep (c : Dev nD) (r : Ref sig .tc) (h : r ≠ main_v24) : W7 m ρ c (Proc.devRef .tc r) = W6 m ρ c (Proc.devRef .tc r) := by
  by_cases hw : ∀ w, Pipeline.arrRef spec3 w ≠ r
  · exact W7_of_ne m ρ c r hw
  · obtain ⟨w, rfl⟩ := not_forall_not.mp hw
    match w with
    | ⟨0, _⟩ => exact (W7_arr m ρ c 0).trans (((dat3 (rd (W6 m ρ)) c).arrAt_in 0 rfl _))
    | ⟨1, _⟩ => exact (W7_arr m ρ c 1).trans (((dat3 (rd (W6 m ρ)) c).arrAt_in 1 rfl _))
    | ⟨2, _⟩ => exact absurd rfl h

theorem W9_keep (c : Dev nD) (r : Ref sig .tc) (h : r ≠ main_v30) : W9 m ρ c (Proc.devRef .tc r) = W8 m ρ c (Proc.devRef .tc r) := by
  by_cases hw : ∀ w, Pipeline.arrRef spec4 w ≠ r
  · exact W9_of_ne m ρ c r hw
  · obtain ⟨w, rfl⟩ := not_forall_not.mp hw
    match w with
    | ⟨0, _⟩ => exact (W9_arr m ρ c 0).trans (((dat4 (rd (W8 m ρ)) c).arrAt_in 0 rfl _))
    | ⟨1, _⟩ => exact (W9_arr m ρ c 1).trans (((dat4 (rd (W8 m ρ)) c).arrAt_in 1 rfl _))
    | ⟨2, _⟩ => exact absurd rfl h

/-- A buffer that no step of @main writes. -/
abbrev Unwritten (r : Ref sig .tc) : Prop :=
  r ≠ main_v0 ∧ r ∉ hostOps1_W ∧ r ≠ main_v5 ∧ r ∉ hostOps2_W ∧ r ≠ main_v11 ∧ r ∉ hostOps3_W ∧ r ≠ main_v24 ∧ r ∉ hostOps4_W
    ∧ r ≠ main_v30 ∧ r ∉ hostOps5_W

section
variable (c : Dev nD) (r : Ref sig .tc) (h : Unwritten r)
include h

theorem W1_arg : W1 m ρ c (Proc.devRef .tc r) = m ((c : Thread nD τ).loc r) := (W1_keep m ρ c r h.1).trans rfl
theorem W2_arg : W2 m ρ c (Proc.devRef .tc r) = m ((c : Thread nD τ).loc r) := (W2_of m ρ c r h.2.1).trans (W1_arg m ρ c r h)
theorem W3_arg : W3 m ρ c (Proc.devRef .tc r) = m ((c : Thread nD τ).loc r) := (W3_keep m ρ c r h.2.2.1).trans (W2_arg m ρ c r h)
theorem W4_arg : W4 m ρ c (Proc.devRef .tc r) = m ((c : Thread nD τ).loc r) := (W4_of m ρ c r h.2.2.2.1).trans (W3_arg m ρ c r h)
theorem W5_arg : W5 m ρ c (Proc.devRef .tc r) = m ((c : Thread nD τ).loc r) := (W5_keep m ρ c r h.2.2.2.2.1).trans (W4_arg m ρ c r h)
theorem W6_arg : W6 m ρ c (Proc.devRef .tc r) = m ((c : Thread nD τ).loc r) := (W6_of m ρ c r h.2.2.2.2.2.1).trans (W5_arg m ρ c r h)
theorem W7_arg : W7 m ρ c (Proc.devRef .tc r) = m ((c : Thread nD τ).loc r) := (W7_keep m ρ c r h.2.2.2.2.2.2.1).trans (W6_arg m ρ c r h)
theorem W8_arg : W8 m ρ c (Proc.devRef .tc r) = m ((c : Thread nD τ).loc r) := (W8_of m ρ c r h.2.2.2.2.2.2.2.1).trans (W7_arg m ρ c r h)
theorem W9_arg : W9 m ρ c (Proc.devRef .tc r) = m ((c : Thread nD τ).loc r) := (W9_keep m ρ c r h.2.2.2.2.2.2.2.2.1).trans (W8_arg m ρ c r h)
theorem W10_arg : W10 m ρ c (Proc.devRef .tc r) = m ((c : Thread nD τ).loc r) := (W10_of m ρ c r h.2.2.2.2.2.2.2.2.2).trans (W9_arg m ρ c r h)

end

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (rd (W0 m ρ)) c
  | ⟨1, _⟩ => fun c => dat1 (rd (W2 m ρ)) c
  | ⟨2, _⟩ => fun c => dat2 (rd (W4 m ρ)) c
  | ⟨3, _⟩ => fun c => dat3 (rd (W6 m ρ)) c
  | ⟨4, _⟩ => fun c => dat4 (rd (W8 m ρ)) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

section
variable (p : Fin 5) (lf : Pipeline.LaunchFacts (nD := nD) (τ := τ) cfgs p) (W W' : Dev nD → Valuation τ sig (Elt F))

abbrev cf : Pipeline.Cfg sig Λ₀ := Pipeline.pin (pcfgs (F := F)) adm p

set_option backward.isDefEq.respectTransparency.types false in
/-- A kernel region as a step of @main from the contents `W` to the contents `W'`. -/
def regOf (hbody : ∀ c, BodyObligation (pdats m ρ p c) (defs₀ (F := F)) 𝒱₀ () Set.univ)
    (hA : ∀ c w, (pdats m ρ p c).A w = rd W c (Pipeline.arrRef (cf (F := F) p).spec w))
    (hq : ∀ c w, (pdats m ρ p c).q w = fullShare) (howed : ∀ c t, (pdats m ρ p c).owed t = 0)
    (hrec : ∀ c, (pdats m ρ p c).recorded 0 = Set.univ)
    (hin : ∀ c, (Pipeline.ΦA (cf (F := F) p).spec c : sProp 𝕄) ⊢ (pdats m ρ p c).Φ 0)
    (hout : ∀ c, (pdats m ρ p c).Φ (Fin.last (cf (F := F) p).N) ⊢ (Pipeline.ΦA (cf (F := F) p).spec c : sProp 𝕄))
    (hF : ∀ c w, W' c (Proc.devRef .tc (Pipeline.arrRef (cf (F := F) p).spec w)) = (pdats m ρ p c).arrAt w (cf (F := F) p).N)
    (hne : ∀ c (b : Ref sig .tc), (∀ w, Pipeline.arrRef (cf (F := F) p).spec w ≠ b) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cf (F := F) p).spec c (rd W c)
  hentry c := by
    rw [Pipeline.ownSems0_none]
    have hsplit := Pipeline.arrays_of_unscopedBufs (p := p) (pcfgs (F := F)) adm (pdats m ρ) lf.win lf.arr_whole c
      ((pdats m ρ p c).share_full fun w => hq c w) (rd W c) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ p c).owed 0 = 0 from howed c 0]
      icases HO with ⟨%W, HO⟩; iexists W; isplitr
      · ipureintro
        exact fun x _ => Or.inl (show x ∈ (pdats m ρ p c).recorded 0 from (hrec c).symm ▸ Set.mem_univ x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full fun w => hq c w)
      (rd W c) (rd W' c) ((pdats m ρ p c).arrAt · (cf (F := F) p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ p c).owed (Fin.last (cf (F := F) p).N) = 0 from howed c _]
    icases HO with ⟨%W, -, HO⟩; iexists W; iexact HO

end

set_option backward.isDefEq.respectTransparency.types false in
def reg0 : Pipeline.RegionSeg (pcfgs (F := F)) adm (pdats m ρ) () defs₀ 𝒱₀ L lv 0 :=
  regOf m ρ 0 launch0 (W0 m ρ) (W1 m ρ) (body_obligation0 (rd (W0 m ρ))) (fun _ _ => rfl) (fun _ _ => rfl) (fun _ _ => rfl)
    (fun _ => rfl) (hin0 (rd (W0 m ρ))) (hout0 (rd (W0 m ρ))) (W1_arr m ρ) (W1_of_ne m ρ)

set_option backward.isDefEq.respectTransparency.types false in
def reg1 : Pipeline.RegionSeg (pcfgs (F := F)) adm (pdats m ρ) () defs₀ 𝒱₀ L lv 1 :=
  regOf m ρ 1 launch1 (W2 m ρ) (W3 m ρ) (body_obligation1 (rd (W2 m ρ))) (fun _ _ => rfl) (fun _ _ => rfl) (fun _ _ => rfl)
    (fun _ => rfl) (hin1 (rd (W2 m ρ))) (hout1 (rd (W2 m ρ))) (W3_arr m ρ) (W3_of_ne m ρ)

set_option backward.isDefEq.respectTransparency.types false in
def reg2 : Pipeline.RegionSeg (pcfgs (F := F)) adm (pdats m ρ) () defs₀ 𝒱₀ L lv 2 :=
  regOf m ρ 2 launch2 (W4 m ρ) (W5 m ρ) (body_obligation2 (rd (W4 m ρ))) (fun _ _ => rfl) (fun _ _ => rfl) (fun _ _ => rfl)
    (fun _ => rfl) (hin2 (rd (W4 m ρ))) (hout2 (rd (W4 m ρ))) (W5_arr m ρ) (W5_of_ne m ρ)

set_option backward.isDefEq.respectTransparency.types false in
def reg3 : Pipeline.RegionSeg (pcfgs (F := F)) adm (pdats m ρ) () defs₀ 𝒱₀ L lv 3 :=
  regOf m ρ 3 launch3 (W6 m ρ) (W7 m ρ) (body_obligation3 (rd (W6 m ρ))) (fun _ _ => rfl) (fun _ _ => rfl) (fun _ _ => rfl)
    (fun _ => rfl) (hin3 (rd (W6 m ρ))) (hout3 (rd (W6 m ρ))) (W7_arr m ρ) (W7_of_ne m ρ)

set_option backward.isDefEq.respectTransparency.types false in
def reg4 : Pipeline.RegionSeg (pcfgs (F := F)) adm (pdats m ρ) () defs₀ 𝒱₀ L lv 4 :=
  regOf m ρ 4 launch4 (W8 m ρ) (W9 m ρ) (body_obligation4 (rd (W8 m ρ))) (fun _ _ => rfl) (fun _ _ => rfl) (fun _ _ => rfl)
    (fun _ => rfl) (hin4 (rd (W8 m ρ))) (hout4 (rd (W8 m ρ))) (W9_arr m ρ) (W9_of_ne m ρ)

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs (onTc (τ := τ) (main (F := F))) ⟨m, fun _ => 0, ρ⟩).mono (fun r h c =>
    ⟨(h c _ (mem_uc main_arg0 (by decide))).trans (W10_arg m ρ c main_arg0 (by decide)),
     (h c _ (mem_uc main_arg1 (by decide))).trans (W10_arg m ρ c main_arg1 (by decide)),
     (h c _ (mem_uc main_arg2 (by decide))).trans (W10_arg m ρ c main_arg2 (by decide)),
     (h c _ (mem_uc main_arg3 (by decide))).trans (W10_arg m ρ c main_arg3 (by decide)),
     (h c _ (mem_uc main_arg4 (by decide))).trans (W10_arg m ρ c main_arg4 (by decide))⟩) (run_all m ρ)

end Cert.KernelIdeal.Fr

end
-- ==== Proof.Spec.lean ====
import Idealize.ShloMosaic.Lib.ValueIdx
import Idealize.ShloMosaic.PureOps.Ideal.Laws
import Mathlib.Algebra.BigOperators.Fin
import Mathlib.Algebra.BigOperators.Group.Finset.Sigma

noncomputable section

open scoped BigOperators

namespace Cert.Spec

open Idealize.ShloMosaic Idealize.ShloMosaic.ValueIdx

def mmN {M K N : Nat} (l : (⟨2, ![M, K]⟩ : Shape).Idx → EReal) (r : (⟨2, ![K, N]⟩ : Shape).Idx → EReal) :
    (⟨2, ![M, N]⟩ : Shape).Idx → EReal :=
  fun i => ∑ a : Fin K, l (ix2 (n0 := M) (i 0) a) * r (ix2 (n1 := N) a (i 1))

def mmT {K M N : Nat} (l : (⟨2, ![K, M]⟩ : Shape).Idx → EReal) (r : (⟨2, ![K, N]⟩ : Shape).Idx → EReal) :
    (⟨2, ![M, N]⟩ : Shape).Idx → EReal :=
  fun i => ∑ a : Fin K, l (ix2 (n1 := M) a (i 0)) * r (ix2 (n1 := N) a (i 1))

theorem mmN_ix2 {M K N : Nat} (l : (⟨2, ![M, K]⟩ : Shape).Idx → EReal) (r : (⟨2, ![K, N]⟩ : Shape).Idx → EReal)
    (p : Fin M) (j : Fin N) : mmN l r (ix2 p j) = ∑ a : Fin K, l (ix2 p a) * r (ix2 a j) := rfl

theorem mmT_ix2 {K M N : Nat} (l : (⟨2, ![K, M]⟩ : Shape).Idx → EReal) (r : (⟨2, ![K, N]⟩ : Shape).Idx → EReal)
    (p : Fin M) (j : Fin N) : mmT l r (ix2 p j) = ∑ a : Fin K, l (ix2 a p) * r (ix2 a j) := rfl

theorem sum_blocks (f : Fin 8192 → EReal) :
    ∑ a : Fin 8192, f a = ∑ k : Fin 8, ∑ b : Fin 1024, f ⟨1024 * k.val + b.val, by omega⟩ := by
  have h := (Equiv.sum_comp (finProdFinEquiv (m := 8) (n := 1024)) f).symm
  rw [Fintype.sum_prod_type] at h
  rw [h]
  refine Finset.sum_congr rfl fun k _ => Finset.sum_congr rfl fun b _ => ?_
  exact congrArg f (Fin.ext (Nat.add_comm _ _))

end Cert.Spec

end
-- ==== Proof.KI.Res.lean ====
import proofs.«114230_j63153199120588_1_alg».proof.KernelIdeal
import proofs.«114230_j63153199120588_1_alg».proof.Proof.Spec

noncomputable section

namespace Cert.KernelIdeal.FrV

open Idealize.ShloMosaic
open Cert.KernelIdeal

variable [Cert.KernelIdeal.Facts]
open Facts₀ Facts

def KRes (a0 : FVec Ideal S8192x64 .f32) (a1 : FVec Ideal S8192x8192 .f32) (a2 : FVec Ideal S8192 .f32)
    (a3 : FVec Ideal S6 .f32) (a4 : FVec Ideal S64x64 .f32) : FVec Ideal S8192x64 .f32 :=
  let X : FVec Ideal S8192x64 .f32 := (Cert.Spec.mmN a0 a4 : S8192x64.Idx → EReal)
  let Y1 : FVec Ideal S8192x64 .f32 := (Cert.Spec.mmT a1 X : S8192x64.Idx → EReal)
  let Y2 : FVec Ideal S8192x64 .f32 := (Cert.Spec.mmT a1 Y1 : S8192x64.Idx → EReal)
  let h : FVec Ideal S8192x64 .f32 :=
    mulf (broadcastInDim S8192x64 ![0, 1] bcast_S8192x1_S8192x64_0_1 (broadcastInDim S8192x1 ![0] bcast_S8192_S8192x1_0 a2))
      (addf (addf (mulf (broadcastInDim S8192x64 ![] bcast_S_S8192x64 (shapeCast S_ (extractStridedSlice S1 ![3] a3 slices_S6_S1_3) shapeCasts_S1_S_)) X)
                  (mulf (broadcastInDim S8192x64 ![] bcast_S_S8192x64 (shapeCast S_ (extractStridedSlice S1 ![4] a3 slices_S6_S1_4) shapeCasts_S1_S_)) Y1))
            (mulf (broadcastInDim S8192x64 ![] bcast_S_S8192x64 (shapeCast S_ (extractStridedSlice S1 ![5] a3 slices_S6_S1_5) shapeCasts_S1_S_)) Y2))
  let Z1 : FVec Ideal S8192x64 .f32 := (Cert.Spec.mmN a1 h : S8192x64.Idx → EReal)
  let Z2 : FVec Ideal S8192x64 .f32 := (Cert.Spec.mmN a1 Z1 : S8192x64.Idx → EReal)
  addf (addf (mulf (broadcastInDim S8192x64 ![] bcast_S_S8192x64 (shapeCast S_ (extractStridedSlice S1 ![0] a3 slices_S6_S1_0) shapeCasts_S1_S_)) h)
             (mulf (broadcastInDim S8192x64 ![] bcast_S_S8192x64 (shapeCast S_ (extractStridedSlice S1 ![1] a3 slices_S6_S1_1) shapeCasts_S1_S_)) Z1))
       (mulf (broadcastInDim S8192x64 ![] bcast_S_S8192x64 (shapeCast S_ (extractStridedSlice S1 ![2] a3 slices_S6_S1_2) shapeCasts_S1_S_)) Z2)

end Cert.KernelIdeal.FrV

end
-- ==== Proof.KI.ValHost.lean ====
import proofs.«114230_j63153199120588_1_alg».proof.Proof.Gen.KernelIdeal.Launch
import proofs.«114230_j63153199120588_1_alg».proof.Proof.Spec
import Idealize.ShloMosaic.Lib.StableHlo.Run
import Idealize.ShloMosaic.PureOps.Ideal.Laws

noncomputable section

namespace Cert.KernelIdeal.FrV

open Idealize.ShloMosaic Idealize.ShloMosaic.TcCoe Idealize.ShloMosaic.StableHlo
open Idealize.SL.Sem
open Cert.KernelIdeal Cert.KernelIdeal.Gen
open Cert.Spec (mmN mmT)

def scal (a3 : FVec Ideal S6 .f32) (k : Nat) (h : S6.Slices ![k] S1) : FVec Ideal S8192x64 .f32 :=
  broadcastInDim S8192x64 ![] Facts₀.bcast_S_S8192x64 (shapeCast S_ (extractStridedSlice S1 ![k] a3 h) Facts₀.shapeCasts_S1_S_)

def rowScale (a2 : FVec Ideal S8192 .f32) : FVec Ideal S8192x64 .f32 :=
  broadcastInDim S8192x64 ![0, 1] Facts₀.bcast_S8192x1_S8192x64_0_1 (broadcastInDim S8192x1 ![0] Facts₀.bcast_S8192_S8192x1_0 a2)

section Terms
variable (a0 : FVec Ideal S8192x64 .f32) (a1 : FVec Ideal S8192x8192 .f32) (a2 : FVec Ideal S8192 .f32)
  (a3 : FVec Ideal S6 .f32) (a4 : FVec Ideal S64x64 .f32)

def kX : FVec Ideal S8192x64 .f32 := (mmN a0 a4 : S8192x64.Idx → EReal)

def kY1 : FVec Ideal S8192x64 .f32 := (mmT a1 (kX a0 a4) : S8192x64.Idx → EReal)

def kY2 : FVec Ideal S8192x64 .f32 := (mmT a1 (kY1 a0 a1 a4) : S8192x64.Idx → EReal)

def kV4 : FVec Ideal S8192x64 .f32 := mulf (scal a3 3 Facts₀.slices_S6_S1_3) (kX a0 a4)

def kV10 : FVec Ideal S8192x64 .f32 := addf (kV4 a0 a3 a4) (mulf (scal a3 4 Facts₀.slices_S6_S1_4) (kY1 a0 a1 a4))

def kV16 : FVec Ideal S8192x64 .f32 := addf (kV10 a0 a1 a3 a4) (mulf (scal a3 5 Facts₀.slices_S6_S1_5) (kY2 a0 a1 a4))

def kH : FVec Ideal S8192x64 .f32 := mulf (rowScale a2) (kV16 a0 a1 a3 a4)

def kV23 : FVec Ideal S8192x64 .f32 := mulf (scal a3 0 Facts₀.slices_S6_S1_0) (kH a0 a1 a2 a3 a4)

def kZ1 : FVec Ideal S8192x64 .f32 := (mmN a1 (kH a0 a1 a2 a3 a4) : S8192x64.Idx → EReal)

def kV29 : FVec Ideal S8192x64 .f32 := addf (kV23 a0 a1 a2 a3 a4) (mulf (scal a3 1 Facts₀.slices_S6_S1_1) (kZ1 a0 a1 a2 a3 a4))

def kZ2 : FVec Ideal S8192x64 .f32 := (mmN a1 (kZ1 a0 a1 a2 a3 a4) : S8192x64.Idx → EReal)

def kV35 : FVec Ideal S8192x64 .f32 := addf (kV29 a0 a1 a2 a3 a4) (mulf (scal a3 2 Facts₀.slices_S6_S1_2) (kZ2 a0 a1 a2 a3 a4))

end Terms

variable (W : Valuation τ sig (Elt Ideal))

theorem host1_v4 (a3 : FVec Ideal S6 .f32) (x : FVec Ideal S8192x64 .f32)
    (h3 : W (Proc.devRef .tc main_arg3) = a3) (hx : W (Proc.devRef .tc main_v0) = x) :
    StableHlo.after (hostOps1 (F := Ideal)) W (Proc.devRef .tc main_v4) = mulf (scal a3 3 Facts₀.slices_S6_S1_3) x := by
  subst h3 hx
  dsimp only [hostOps1]
  after_results
  rfl

theorem host2_v10 (a3 : FVec Ideal S6 .f32) (y v : FVec Ideal S8192x64 .f32)
    (h3 : W (Proc.devRef .tc main_arg3) = a3) (hy : W (Proc.devRef .tc main_v5) = y) (hv : W (Proc.devRef .tc main_v4) = v) :
    StableHlo.after (hostOps2 (F := Ideal)) W (Proc.devRef .tc main_v10) = addf v (mulf (scal a3 4 Facts₀.slices_S6_S1_4) y) := by
  subst h3 hy hv
  dsimp only [hostOps2]
  after_results
  rfl

theorem host3_v19 (a2 : FVec Ideal S8192 .f32) (a3 : FVec Ideal S6 .f32) (y v : FVec Ideal S8192x64 .f32)
    (h2 : W (Proc.devRef .tc main_arg2) = a2) (h3 : W (Proc.devRef .tc main_arg3) = a3)
    (hy : W (Proc.devRef .tc main_v11) = y) (hv : W (Proc.devRef .tc main_v10) = v) :
    StableHlo.after (hostOps3 (F := Ideal)) W (Proc.devRef .tc main_v19)
      = mulf (rowScale a2) (addf v (mulf (scal a3 5 Facts₀.slices_S6_S1_5) y)) := by
  subst h2 h3 hy hv
  dsimp only [hostOps3]
  after_results
  rfl

theorem host3_v23 (a2 : FVec Ideal S8192 .f32) (a3 : FVec Ideal S6 .f32) (y v : FVec Ideal S8192x64 .f32)
    (h2 : W (Proc.devRef .tc main_arg2) = a2) (h3 : W (Proc.devRef .tc main_arg3) = a3)
    (hy : W (Proc.devRef .tc main_v11) = y) (hv : W (Proc.devRef .tc main_v10) = v) :
    StableHlo.after (hostOps3 (F := Ideal)) W (Proc.devRef .tc main_v23)
      = mulf (scal a3 0 Facts₀.slices_S6_S1_0) (mulf (rowScale a2) (addf v (mulf (scal a3 5 Facts₀.slices_S6_S1_5) y))) := by
  subst h2 h3 hy hv
  dsimp only [hostOps3]
  after_results
  rfl

theorem host4_v29 (a3 : FVec Ideal S6 .f32) (z v : FVec Ideal S8192x64 .f32)
    (h3 : W (Proc.devRef .tc main_arg3) = a3) (hz : W (Proc.devRef .tc main_v24) = z) (hv : W (Proc.devRef .tc main_v23) = v) :
    StableHlo.after (hostOps4 (F := Ideal)) W (Proc.devRef .tc main_v29) = addf v (mulf (scal a3 1 Facts₀.slices_S6_S1_1) z) := by
  subst h3 hz hv
  dsimp only [hostOps4]
  after_results
  rfl

theorem host5_v35 (a3 : FVec Ideal S6 .f32) (z v : FVec Ideal S8192x64 .f32)
    (h3 : W (Proc.devRef .tc main_arg3) = a3) (hz : W (Proc.devRef .tc main_v30) = z) (hv : W (Proc.devRef .tc main_v29) = v) :
    StableHlo.after (hostOps5 (F := Ideal)) W (Proc.devRef .tc main_v35) = addf v (mulf (scal a3 2 Facts₀.slices_S6_S1_2) z) := by
  subst h3 hz hv
  dsimp only [hostOps5]
  after_results
  rfl

end Cert.KernelIdeal.FrV

end
-- ==== Proof.LibDot2.lean ====
import Idealize.ShloMosaic.Lib.ValueIdx
import Idealize.ShloMosaic.PureOps.Ideal.Laws

noncomputable section

namespace Cert.Lib.Dot2

open Idealize.ShloMosaic Idealize.ShloMosaic.ValueIdx

theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KI.ValDot.lean ====
import proofs.«114230_j63153199120588_1_alg».proof.Proof.Gen.KernelIdeal.Skeleton
import Idealize.ShloMosaic.Lib.ValueIdx

noncomputable section

namespace Cert.KernelIdeal.FrV

open Idealize.ShloMosaic Idealize.ShloMosaic.ValueIdx
open Cert.KernelIdeal Cert.KernelIdeal.Gen

theorem hz : (![0, 0] : Fin 2 → Nat) = fun _ => 0 := funext fun a => by fin_cases a <;> rfl

/-! The block product that applies Θᵀ contracts the first axis of both blocks. -/

theorem dotT_pos : 0 < dot_S1024x1024_S1024x64_S1024x64_0_0_1_1_n_n.contr.rank := Nat.one_pos
theorem dotT_rank : dot_S1024x1024_S1024x64_S1024x64_0_0_1_1_n_n.contr.rank = 1 := rfl
theorem dotT_size : dot_S1024x1024_S1024x64_S1024x64_0_0_1_1_n_n.contr.size ⟨0, dotT_pos⟩ = 1024 := rfl
theorem dotT_lhs_0 (i : S1024x64.Idx) (q : dot_S1024x1024_S1024x64_S1024x64_0_0_1_1_n_n.contr.Idx) : (dot_S1024x1024_S1024x64_S1024x64_0_0_1_1_n_n.lhsIdx i q 0).val = (q ⟨0, dotT_pos⟩).val := by
  simp [DotDims.lhsIdx, dot_S1024x1024_S1024x64_S1024x64_0_0_1_1_n_n]; rfl
theorem dotT_lhs_1 (i : S1024x64.Idx) (q : dot_S1024x1024_S1024x64_S1024x64_0_0_1_1_n_n.contr.Idx) : (dot_S1024x1024_S1024x64_S1024x64_0_0_1_1_n_n.lhsIdx i q 1).val = (i 0).val := by
  simp [DotDims.lhsIdx, dot_S1024x1024_S1024x64_S1024x64_0_0_1_1_n_n]; rfl
theorem dotT_rhs_0 (i : S1024x64.Idx) (q : dot_S1024x1024_S1024x64_S1024x64_0_0_1_1_n_n.contr.Idx) : (dot_S1024x1024_S1024x64_S1024x64_0_0_1_1_n_n.rhsIdx i q 0).val = (q ⟨0, dotT_pos⟩).val := by
  simp [DotDims.rhsIdx, dot_S1024x1024_S1024x64_S1024x64_0_0_1_1_n_n]; rfl
theorem dotT_rhs_1 (i : S1024x64.Idx) (q : dot_S1024x1024_S1024x64_S1024x64_0_0_1_1_n_n.contr.Idx) : (dot_S1024x1024_S1024x64_S1024x64_0_0_1_1_n_n.rhsIdx i q 1).val = (i 1).val := by
  simp [DotDims.rhsIdx, dot_S1024x1024_S1024x64_S1024x64_0_0_1_1_n_n]; rfl

/-! The block product that applies Θ contracts the left block's second axis with the right block's first. -/

theorem dotN_rank : dot_S1024x1024_S1024x64_S1024x64_1_0_0_1_n_n.contr.rank = 1 := rfl
theorem dotN_size : dot_S1024x1024_S1024x64_S1024x64_1_0_0_1_n_n.contr.size ⟨0, by rw [dotN_rank]; omega⟩ = 1024 := rfl
theorem dotN_lhs_0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem dotN_lhs_1 (i : S1024x64.Idx) (q : dot_S1024x1024_S1024x64_S1024x64_1_0_0_1_n_n.contr.Idx) : (dot_S1024x1024_S1024x64_S1024x64_1_0_0_1_n_n.lhsIdx i q 1).val = (q ⟨0, by rw [dotN_rank]; omega⟩).val :=
  dot_S1024x1024_S1024x64_S1024x64_1_0_0_1_n_n.lhsIdx_val_of_single (cl := 1) rfl i q
theorem dotN_rhs_0 (i : S1024x64.Idx) (q : dot_S1024x1024_S1024x64_S1024x64_1_0_0_1_n_n.contr.Idx) : (dot_S1024x1024_S1024x64_S1024x64_1_0_0_1_n_n.rhsIdx i q 0).val = (q ⟨0, by rw [dotN_rank]; omega⟩).val :=
  dot_S1024x1024_S1024x64_S1024x64_1_0_0_1_n_n.rhsIdx_val_of_single (cr := 0) rfl i q
theorem dotN_rhs_1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

end Cert.KernelIdeal.FrV

end
-- ==== Proof.KI.Val0.lean ====
import proofs.«114230_j63153199120588_1_alg».proof.Proof.KI.Reg0
import proofs.«114230_j63153199120588_1_alg».proof.Proof.Spec
import proofs.«114230_j63153199120588_1_alg».proof.Proof.LibDot2
import proofs.«114230_j63153199120588_1_alg».proof.Proof.KI.ValDot
import Idealize.ShloMosaic.Lib.Pipeline.Value
import Idealize.ShloMosaic.Lib.ValueIdx
import Idealize.ShloMosaic.PureOps.Ideal.Laws

noncomputable section

namespace Cert.KernelIdeal.FrV

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr
open Cert.Spec (mmN mmN_ix2)

theorem dot0_rank : (dot_S2048x64_S64x64_S2048x64_1_0_0_1_n_n).contr.rank = 1 := rfl
theorem dot0_size : (dot_S2048x64_S64x64_S2048x64_1_0_0_1_n_n).contr.size ⟨0, by rw [dot0_rank]; omega⟩ = 64 := rfl

theorem dot0_lhs_0 (i : S2048x64.Idx) (q : (dot_S2048x64_S64x64_S2048x64_1_0_0_1_n_n).contr.Idx) :
    ((dot_S2048x64_S64x64_S2048x64_1_0_0_1_n_n).lhsIdx i q 0).val = (i 0).val := by
  unfold DotDims.lhsIdx
  rw [dif_neg (show ¬(0 : Fin S2048x64.rank) ∈ (dot_S2048x64_S64x64_S2048x64_1_0_0_1_n_n).lhsBatch by decide),
    dif_pos (show (0 : Fin S2048x64.rank) ∈ (dot_S2048x64_S64x64_S2048x64_1_0_0_1_n_n).lhsNonContracting by decide)]
  rfl

theorem dot0_lhs_1 (i : S2048x64.Idx) (q : (dot_S2048x64_S64x64_S2048x64_1_0_0_1_n_n).contr.Idx) :
    ((dot_S2048x64_S64x64_S2048x64_1_0_0_1_n_n).lhsIdx i q 1).val = (q ⟨0, by rw [dot0_rank]; omega⟩).val :=
  (dot_S2048x64_S64x64_S2048x64_1_0_0_1_n_n).lhsIdx_val_of_single (cl := 1) rfl i q

theorem dot0_rhs_0 (i : S2048x64.Idx) (q : (dot_S2048x64_S64x64_S2048x64_1_0_0_1_n_n).contr.Idx) :
    ((dot_S2048x64_S64x64_S2048x64_1_0_0_1_n_n).rhsIdx i q 0).val = (q ⟨0, by rw [dot0_rank]; omega⟩).val :=
  (dot_S2048x64_S64x64_S2048x64_1_0_0_1_n_n).rhsIdx_val_of_single (cr := 0) rfl i q

theorem dot0_rhs_1 (i : S2048x64.Idx) (q : (dot_S2048x64_S64x64_S2048x64_1_0_0_1_n_n).contr.Idx) :
    ((dot_S2048x64_S64x64_S2048x64_1_0_0_1_n_n).rhsIdx i q 1).val = (i 1).val := by
  unfold DotDims.rhsIdx
  rw [dif_neg (show ¬(1 : Fin S64x64.rank) ∈ (dot_S2048x64_S64x64_S2048x64_1_0_0_1_n_n).rhsBatch by decide),
    dif_pos (show (1 : Fin S64x64.rank) ∈ (dot_S2048x64_S64x64_S2048x64_1_0_0_1_n_n).rhsNonContracting by decide)]
  rfl

theorem pay_ix2 (x0 : Vec Ideal S2048x64 .f32) (x1 : Vec Ideal S64x64 .f32) (p : Fin 2048) (j : Fin 64) :
    k0_pay1 x0 x1 (ix2 p j) = ∑ a : Fin 64, x0 (ix2 p a) * x1 (ix2 a j) := by
  unfold k0_pay1
  exact Cert.Lib.Dot2.matmul_zero_ix2 (M := 2048) (K := 64) (N := 64) dot_S2048x64_S64x64_S2048x64_1_0_0_1_n_n none
    dot0_rank dot0_size dot0_lhs_0 dot0_lhs_1 dot0_rhs_0 dot0_rhs_1 _ _ p j

theorem pay_rows (x0 : Vec Ideal S2048x64 .f32) (x1 : Vec Ideal S64x64 .f32)
    (A : S8192x64.Idx → EReal) (B : S64x64.Idx → EReal) (n : Nat)
    (h0 : ∀ (y : S2048x64.Idx) (k : S8192x64.Idx), (k 0).val = 2048 * n + (y 0).val → (k 1).val = (y 1).val → x0 y = A k)
    (h1 : ∀ y : S64x64.Idx, x1 y = B y)
    (y : S2048x64.Idx) (k : S8192x64.Idx) (hk0 : (k 0).val = 2048 * n + (y 0).val) (hk1 : (k 1).val = (y 1).val) :
    k0_pay1 x0 x1 y = mmN A B k := by
  obtain ⟨p, j, rfl⟩ : ∃ (p : Fin 2048) (j : Fin 64), y = ix2 p j := ⟨y 0, y 1, eq_ix2 y⟩
  obtain ⟨p', j', rfl⟩ : ∃ (p' : Fin 8192) (j' : Fin 64), k = ix2 p' j' := ⟨k 0, k 1, eq_ix2 k⟩
  have hp : p'.val = 2048 * n + p.val := hk0
  obtain rfl : j' = j := Fin.ext hk1
  rw [pay_ix2, mmN_ix2]
  refine Finset.sum_congr rfl fun a _ => ?_
  rw [h0 (ix2 p a) (ix2 p' a) hp rfl, h1]

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem lblk_apply (c : Dev nD) (t : Fin cfg0.N) (x : S2048x64.Idx) (k : S8192x64.Idx)
    (hk0 : (k 0).val = 2048 * t.val + (x 0).val) (hk1 : (k 1).val = (x 1).val) :
    (iblk0 V c 0 t : Vec Ideal S2048x64 .f32) x = (V c main_arg0 : S8192x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 64 + 1 * (x 1).val = (k 1).val; rw [e1, hk1]; omega

theorem rblk_apply (c : Dev nD) (t : Fin cfg0.N) (x : S64x64.Idx) :
    (iblk0 V c 1 t : Vec Ideal S64x64 .f32) x = (V c main_arg4 : S64x64.Idx → EReal) x := by
  obtain ⟨-, -, e0, e1, -⟩ := idx_facts t
  unfold iblk0
  rw [View.read_apply]
  show V c main_arg4 _ = V c main_arg4 _
  congr 1
  funext a
  apply Fin.ext
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

theorem flushed_eq (c : Dev nD) (t : Fin cfg0.N) :
    (dat0 (F := Ideal) V c).flushed 2 t
      = ((cfg0.win 2).blk t).view.read (Elt Ideal) (mmN (V c main_arg0) (V c main_arg4) : S8192x64.Idx → EReal) := by
  show (cfg0.win 2).cut (grid0.coords t) ((dat0 (F := Ideal) V c).after 2 t) = _
  rw [after0_2]
  unfold out0_2
  rw [View.canon_unit_zero hz]
  simp only [View.ld_unit_zero (S := S2048x64) hz, View.ld_unit_zero (S := S64x64) hz]
  obtain ⟨-, -, -, -, e0, e1⟩ := idx_facts t
  funext y
  refine pay_rows (iblk0 V c 0 t) (iblk0 V c 1 t) (V c main_arg0) (V c main_arg4) t.val
    (lblk_apply V c t) (rblk_apply V c t) _ (((cfg0.win 2).blk t).view.emb y) ?_ ?_
  · show win0_2.index t (0 : Fin 2) * 2048 + 1 * (y 0).val = 2048 * t.val + (y 0).val; rw [e0]; omega
  · show win0_2.index t (1 : Fin 2) * 64 + 1 * (y 1).val = (y 1).val; rw [e1]; omega

theorem mem_blk (t : Fin cfg0.N) (i : S8192x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v0).slice (win0_2.rect t)).set ↔ _
  rw [View.set_slice_whole, Rect.mem_set_unit]
  exact Iff.rfl

theorem cover (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 4 := N_0
  refine ⟨⟨(i 0).val / 2048, by rw [hN]; omega⟩, flush0_2 _, ?_⟩
  rw [mem_blk]
  obtain ⟨-, -, -, -, e0, e1⟩ := idx_facts ⟨(i 0).val / 2048, by rw [hN]; omega⟩
  intro a
  match a with
  | ⟨0, _⟩ =>
    show win0_2.index _ (0 : Fin 2) * 2048 ≤ (i 0).val ∧ (i 0).val < win0_2.index _ (0 : Fin 2) * 2048 + 2048
    rw [e0]; show (i 0).val / 2048 * 2048 ≤ (i 0).val ∧ (i 0).val < (i 0).val / 2048 * 2048 + 2048; omega
  | ⟨1, _⟩ =>
    show win0_2.index _ (1 : Fin 2) * 64 ≤ (i 1).val ∧ (i 1).val < win0_2.index _ (1 : Fin 2) * 64 + 64
    rw [e1]; omega

theorem arr0_eq (c : Dev nD) :
    (dat0 (F := Ideal) V c).arrAt 2 cfg0.N = (Cert.Spec.mmN (V c main_arg0) (V c main_arg4) : S8192x64.Idx → EReal) :=
  (dat0 (F := Ideal) V c).arrAt_eq_of_cover 2 _ (fun t _ => flushed_eq V c t) cover

end Cert.KernelIdeal.FrV

end
-- ==== Proof.LibDotT.lean ====
import Idealize.ShloMosaic.Lib.ValueIdx
import Idealize.ShloMosaic.PureOps.Ideal.Laws
import proofs.«114230_j63153199120588_1_alg».proof.Proof.LibDot2

noncomputable section

namespace Cert.Lib.DotT

open Idealize.ShloMosaic Idealize.ShloMosaic.ValueIdx

theorem contraction_ix2_T {K M N : Nat} (D : DotDims ⟨2, ![K, M]⟩ ⟨2, ![K, N]⟩ ⟨2, ![M, N]⟩)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : (⟨2, ![K, M]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 a p) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 a p := funext fun d => Fin.ext (by
    match d with
    | ⟨0, _⟩ => exact (hl0 _ _).trans hk
    | ⟨1, _⟩ => exact hl1 _ _)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

theorem matmul_zero_ix2_T {K M N : Nat} {φ₁ φ₂ : FTy} (D : DotDims ⟨2, ![K, M]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : FVec Ideal ⟨2, ![K, M]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 a p) * r (ix2 a j) := by
  show FloatOps.matmul D prec l r (constant (F := Ideal) ⟨2, ![M, N]⟩ .f32 0x00000000#32) (ix2 p j) = _
  rw [Ideal.matmul_constant_zero_apply]
  exact contraction_ix2_T D hr hs hl0 hl1 hr0 hr1 l r p j

theorem dotGeneral_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    Host.dotGeneral (F := Ideal) D prec l r (ix2 p j) = ∑ a : Fin K, l (ix2 p a) * r (ix2 a j) := by
  show FloatOps.dotGeneral D prec .single l r (ix2 p j) = _
  rw [Ideal.dotGeneral_apply]
  exact Cert.Lib.Dot2.contraction_ix2 D hr hs hl0 hl1 hr0 hr1 l r p j

theorem dotGeneral_ix2_T {K M N : Nat} {φ₁ φ₂ : FTy} (D : DotDims ⟨2, ![K, M]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : FVec Ideal ⟨2, ![K, M]⟩ φ₁) (r : FVec Ideal ⟨2, ![K, N]⟩ φ₂) (p : Fin M) (j : Fin N) :
    Host.dotGeneral (F := Ideal) D prec l r (ix2 p j) = ∑ a : Fin K, l (ix2 a p) * r (ix2 a j) := by
  show FloatOps.dotGeneral D prec .single l r (ix2 p j) = _
  rw [Ideal.dotGeneral_apply]
  exact contraction_ix2_T D hr hs hl0 hl1 hr0 hr1 l r p j

end Cert.Lib.DotT

end
-- ==== Proof.LibAccum.lean ====
import proofs.«114230_j63153199120588_1_alg».proof.Proof.Spec

noncomputable section

open scoped BigOperators

namespace Cert.Lib.Accum

open Idealize.ShloMosaic Idealize.ShloMosaic.ValueIdx
open Cert.Spec (mmN mmN_ix2 mmT)

/-- The transposed square array. -/
def tr (A : (⟨2, ![8192, 8192]⟩ : Shape).Idx → EReal) : (⟨2, ![8192, 8192]⟩ : Shape).Idx → EReal :=
  fun z => A (ix2 (z 1) (z 0))

theorem mmT_eq (A : (⟨2, ![8192, 8192]⟩ : Shape).Idx → EReal) (B : (⟨2, ![8192, 64]⟩ : Shape).Idx → EReal) :
    mmT A B = mmN (tr A) B := rfl

variable (A : (⟨2, ![8192, 8192]⟩ : Shape).Idx → EReal) (B : (⟨2, ![8192, 64]⟩ : Shape).Idx → EReal)

/-- Block `k`'s share of entry (1024 i + p, j) of A · B: its terms at the summed positions 1024 k … 1024 k + 1023. -/
def share (i : ℕ) (p : Fin 1024) (j : Fin 64) (k : ℕ) : EReal :=
  if h : i < 8 ∧ k < 8 then
    ∑ a : Fin 1024, A (ix2 ⟨1024 * i + p.val, by omega⟩ ⟨1024 * k + a.val, by omega⟩) * B (ix2 ⟨1024 * k + a.val, by omega⟩ j)
  else 0

/-- The product of block (i, k) of A with block row k of B is block k's share. -/
theorem blockprod_eq_share (x0 : (⟨2, ![1024, 1024]⟩ : Shape).Idx → EReal) (x1 : (⟨2, ![1024, 64]⟩ : Shape).Idx → EReal)
    (i k : ℕ) (hi : i < 8) (hk : k < 8)
    (h0 : ∀ y z, (z 0).val = 1024 * i + (y 0).val → (z 1).val = 1024 * k + (y 1).val → x0 y = A z)
    (h1 : ∀ y z, (z 0).val = 1024 * k + (y 0).val → (z 1).val = (y 1).val → x1 y = B z)
    (p : Fin 1024) (j : Fin 64) :
    ∑ a : Fin 1024, x0 (ix2 p a) * x1 (ix2 a j) = share A B i p j k := by
  unfold share
  rw [dif_pos ⟨hi, hk⟩]
  refine Finset.sum_congr rfl fun a _ => ?_
  rw [h0 (ix2 p a) (ix2 ⟨1024 * i + p.val, by omega⟩ ⟨1024 * k + a.val, by omega⟩) rfl rfl,
    h1 (ix2 a j) (ix2 ⟨1024 * k + a.val, by omega⟩ j) rfl rfl]

/-- The eight shares add up to the entry: a sum over 8192 positions is the sum over its eight consecutive blocks. -/
theorem sum_shares (i : ℕ) (hi : i < 8) (p : Fin 1024) (j : Fin 64) :
    ∑ k ∈ Finset.range 8, share A B i p j k = mmN A B (ix2 ⟨1024 * i + p.val, by omega⟩ j) := by
  rw [mmN_ix2, Cert.Spec.sum_blocks, ← Fin.sum_univ_eq_sum_range (fun k => share A B i p j k) 8]
  refine Finset.sum_congr rfl fun k _ => ?_
  unfold share
  rw [dif_pos ⟨hi, k.isLt⟩]

/-- An accumulator restarted at each k = 0 and extended by one share per point holds the shares of blocks 0 … k. -/
theorem acc_shares {N : ℕ} (acc : (n : ℕ) → n < N → (⟨2, ![1024, 64]⟩ : Shape).Idx → EReal)
    (hA : ∀ n hn, n % 8 = 0 → ∀ p j, acc n hn (ix2 p j) = share A B (n / 8) p j (n % 8))
    (hB : ∀ n hn, ¬n % 8 = 0 → ∀ p j, acc n hn (ix2 p j)
      = acc (n - 1) (Nat.lt_of_le_of_lt (Nat.sub_le _ _) hn) (ix2 p j) + share A B (n / 8) p j (n % 8)) :
    ∀ n hn p j, acc n hn (ix2 p j) = ∑ k ∈ Finset.range (n % 8 + 1), share A B (n / 8) p j k := by
  intro n
  induction n using Nat.strong_induction_on with
  | _ n ih =>
    intro hn p j
    by_cases h0 : n % 8 = 0
    · rw [hA n hn h0 p j, h0]
      exact (Finset.sum_range_one _).symm
    · have hprev := ih (n - 1) (by omega) (Nat.lt_of_le_of_lt (Nat.sub_le _ _) hn) p j
      rw [show (n - 1) / 8 = n / 8 by omega, show (n - 1) % 8 + 1 = n % 8 by omega] at hprev
      rw [hB n hn h0 p j, hprev]
      exact (Finset.sum_range_succ _ _).symm

/-- A block holding all eight shares of block row i holds rows 1024 i … of A · B. -/
theorem rows_of_shares (acc : (⟨2, ![1024, 64]⟩ : Shape).Idx → EReal) (i : ℕ) (hi : i < 8)
    (hacc : ∀ (p : Fin 1024) (j : Fin 64), acc (ix2 p j) = ∑ k ∈ Finset.range 8, share A B i p j k)
    (y : (⟨2, ![1024, 64]⟩ : Shape).Idx) (z : (⟨2, ![8192, 64]⟩ : Shape).Idx)
    (hz0 : (z 0).val = 1024 * i + (y 0).val) (hz1 : (z 1).val = (y 1).val) : acc y = mmN A B z := by
  obtain ⟨p, j, rfl⟩ : ∃ (p : Fin 1024) (j : Fin 64), y = ix2 p j := ⟨y 0, y 1, eq_ix2 y⟩
  obtain ⟨r, j', rfl⟩ : ∃ (r : Fin 8192) (j' : Fin 64), z = ix2 r j' := ⟨z 0, z 1, eq_ix2 z⟩
  have hr : r.val = 1024 * i + p.val := hz0
  obtain rfl : j' = j := Fin.ext hz1
  rw [hacc p j', sum_shares A B i hi p j']
  exact congrArg (fun r => mmN A B (ix2 r j')) (Fin.ext hr.symm)

end Cert.Lib.Accum

end
-- ==== Proof.KI.ValT1.lean ====
import proofs.«114230_j63153199120588_1_alg».proof.Proof.KI.Reg1
import proofs.«114230_j63153199120588_1_alg».proof.Proof.Spec
import proofs.«114230_j63153199120588_1_alg».proof.Proof.LibDotT
import proofs.«114230_j63153199120588_1_alg».proof.Proof.LibAccum
import proofs.«114230_j63153199120588_1_alg».proof.Proof.KI.ValDot
import Idealize.ShloMosaic.Lib.Pipeline.Value
import Idealize.ShloMosaic.Lib.ValueIdx
import Idealize.ShloMosaic.PureOps.Ideal.Laws

noncomputable section

namespace Cert.KernelIdeal.FrV.R1

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen Cert.KernelIdeal.Fr
open Cert.Spec (mmN mmT)
open Cert.Lib.Accum

section pieces
variable {F : FTy → Type} [FloatOps F]
variable (c : Dev nD) (i : grid1.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem soutA_eq (hc0 : cond1_0 i) (hc1 : ¬cond1_1 i) (x0 : Vec F S1024x1024 .f32) (x1 : Vec F S1024x64 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  rw [View.canon_cons_unit_zero (S := S1024x64) hz]
  simp only [View.readAt_eq_ld, harg2.read_unread, harg3.read_unread, View.ld_unit_zero (S := S1024x1024) hz,
    View.ld_unit_zero (S := S1024x64) hz, View.readCov_unit_zero (S := S1024x64) _ hz]

theorem soutB_eq (hc0 : ¬cond1_0 i) (hc1 : ¬cond1_1 i) (x0 : Vec F S1024x1024 .f32) (x1 : Vec F S1024x64 .f32) (xs0 : Vec F S1024x64 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem soutC_eq (hc0 : ¬cond1_0 i) (hc1 : cond1_1 i) (x0 : Vec F S1024x1024 .f32) (x1 : Vec F S1024x64 .f32) (xs0 : Vec F S1024x64 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem outC_eq (hc0 : ¬cond1_0 i) (hc1 : cond1_1 i) (x0 : Vec F S1024x1024 .f32) (x1 : Vec F S1024x64 .f32) (xs0 : Vec F S1024x64 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz, View.readCov_unit_zero (S := S1024x64) _ hz]

end pieces

theorem pay1_ix2 (p : Fin 1024) (j : Fin 64) : k1_pay1 (F := Ideal) (ix2 p j) = 0 := by
  unfold k1_pay1
  simp only [shapeCast_self]
  exact Ideal.ofBits_zero_f32

theorem pay2_ix2 (x0 : Vec Ideal S1024x1024 .f32) (x1 xs : Vec Ideal S1024x64 .f32) (p : Fin 1024) (j : Fin 64) :
    k1_pay2 (F := Ideal) x0 x1 xs (ix2 p j) = xs (ix2 p j) + ∑ a : Fin 1024, x0 (ix2 a p) * x1 (ix2 a j) := by
  unfold k1_pay2
  simp only [shapeCast_self]
  refine congrArg (xs (ix2 p j) + ·) ?_
  exact Cert.Lib.DotT.matmul_zero_ix2_T (K := 1024) (M := 1024) (N := 64) dot_S1024x1024_S1024x64_S1024x64_0_0_1_1_n_n none
    dotT_rank dotT_size dotT_lhs_0 dotT_lhs_1 dotT_rhs_0 dotT_rhs_1 _ _ p j

theorem idx_facts1 : ∀ t : Fin cfg1.N, win1_0.index t (0 : Fin 2) = t.val % 8 ∧ win1_0.index t (1 : Fin 2) = t.val / 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

variable (V : (c : Dev nD) → (b : Ref sig .tc) → Buf (Elt Ideal) ((c : Thread nD τ).loc b))

abbrev lblk1 (c : Dev nD) (t : Fin cfg1.N) : Vec Ideal S1024x1024 .f32 := iblk1 V c 0 t
abbrev rblk1 (c : Dev nD) (t : Fin cfg1.N) : Vec Ideal S1024x64 .f32 := iblk1 V c 1 t
abbrev larr1 (c : Dev nD) : S8192x8192.Idx → EReal := tr (V c main_arg1)
abbrev rarr1 (c : Dev nD) : S8192x64.Idx → EReal := V c main_v0

theorem lblk1_apply (c : Dev nD) (t : Fin cfg1.N) (y : S1024x1024.Idx) (z : S8192x8192.Idx)
    (hz0 : (z 0).val = 1024 * (t.val % 8) + (y 0).val) (hz1 : (z 1).val = 1024 * (t.val / 8) + (y 1).val) :
    lblk1 V c t y = (V c main_arg1 : S8192x8192.Idx → EReal) z := by
  obtain ⟨e0, e1, -⟩ := idx_facts1 t
  unfold lblk1 iblk1
  rw [View.read_apply]
  show V c main_arg1 _ = V c main_arg1 _
  congr 1
  funext a
  apply Fin.ext
  match a with
  | ⟨0, _⟩ => show win1_0.index t (0 : Fin 2) * 1024 + 1 * (y 0).val = (z 0).val; rw [e0, hz0]; omega
  | ⟨1, _⟩ => show win1_0.index t (1 : Fin 2) * 1024 + 1 * (y 1).val = (z 1).val; rw [e1, hz1]; omega

theorem rblk1_apply (c : Dev nD) (t : Fin cfg1.N) (y : S1024x64.Idx) (z : S8192x64.Idx)
    (hz0 : (z 0).val = 1024 * (t.val % 8) + (y 0).val) (hz1 : (z 1).val = (y 1).val) :
    rblk1 V c t y = rarr1 V c z := by
  obtain ⟨-, -, e0, e1, -⟩ := idx_facts1 t
  unfold rblk1 iblk1
  rw [View.read_apply]
  show V c main_v0 _ = V c main_v0 _
  congr 1
  funext a
  apply Fin.ext
  match a with
  | ⟨0, _⟩ => show win1_1.index t (0 : Fin 2) * 1024 + 1 * (y 0).val = (z 0).val; rw [e0, hz0]; omega
  | ⟨1, _⟩ => show win1_1.index t (1 : Fin 2) * 64 + 1 * (y 1).val = (z 1).val; rw [e1, hz1]; omega

theorem point_share (c : Dev nD) (t : Fin cfg1.N) (p : Fin 1024) (j : Fin 64) :
    ∑ a : Fin 1024, lblk1 V c t (ix2 a p) * rblk1 V c t (ix2 a j) = share (larr1 V c) (rarr1 V c) (t.val / 8) p j (t.val % 8) := by
  have hN : t.val < 64 := lt_of_lt_of_eq t.isLt N_1
  exact blockprod_eq_share (larr1 V c) (rarr1 V c) (fun y => lblk1 V c t (ix2 (y 1) (y 0))) (rblk1 V c t) (t.val / 8) (t.val % 8)
    (by omega) (by omega) (fun y z hz0 hz1 => lblk1_apply V c t (ix2 (y 1) (y 0)) (ix2 (z 1) (z 0)) hz1 hz0) (rblk1_apply V c t) p j

/-- After point n = 8 i + k the accumulator holds the shares of blocks 0 … k of block row i. -/
theorem acc_eq (c : Dev nD) : ∀ (n : ℕ) (hn : n < cfg1.N) (p : Fin 1024) (j : Fin 64),
    accAt1 V c n hn (ix2 p j) = ∑ k ∈ Finset.range (n % 8 + 1), share (larr1 V c) (rarr1 V c) (n / 8) p j k :=
  acc_shares (larr1 V c) (rarr1 V c) (accAt1 V c)
    (fun n hn h0 p j => by
      have h1 : ¬n % 8 = 7 := by omega
      refine (congrFun (accAt1_A V c ⟨n, hn⟩ h0 h1) (ix2 p j)).trans ?_
      refine (congrFun (soutA_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) ((hcond1_0 ⟨n, hn⟩).mpr h0) (mt (hcond1_1 ⟨n, hn⟩).mp h1)
        (lblk1 V c ⟨n, hn⟩) (rblk1 V c ⟨n, hn⟩)) (ix2 p j)).trans ?_
      refine (pay2_ix2 (lblk1 V c ⟨n, hn⟩) (rblk1 V c ⟨n, hn⟩) (k1_pay1 (F := Ideal)) p j).trans ?_
      rw [pay1_ix2, zero_add]
      exact point_share V c ⟨n, hn⟩ p j)
    (fun n hn h0 p j => by
      by_cases h1 : n % 8 = 7
      · refine (congrFun (accAt1_C V c ⟨n, hn⟩ h0 h1) (ix2 p j)).trans ?_
        refine (congrFun (soutC_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (mt (hcond1_0 ⟨n, hn⟩).mp h0) ((hcond1_1 ⟨n, hn⟩).mpr h1)
          (lblk1 V c ⟨n, hn⟩) (rblk1 V c ⟨n, hn⟩) (accPrev1 V c ⟨n, hn⟩)) (ix2 p j)).trans ?_
        refine (pay2_ix2 (lblk1 V c ⟨n, hn⟩) (rblk1 V c ⟨n, hn⟩) (accPrev1 V c ⟨n, hn⟩) p j).trans ?_
        exact congrArg (_ + ·) (point_share V c ⟨n, hn⟩ p j)
      · refine (congrFun (accAt1_B V c ⟨n, hn⟩ h0 h1) (ix2 p j)).trans ?_
        refine (congrFun (soutB_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (mt (hcond1_0 ⟨n, hn⟩).mp h0) (mt (hcond1_1 ⟨n, hn⟩).mp h1)
          (lblk1 V c ⟨n, hn⟩) (rblk1 V c ⟨n, hn⟩) (accPrev1 V c ⟨n, hn⟩)) (ix2 p j)).trans ?_
        refine (pay2_ix2 (lblk1 V c ⟨n, hn⟩) (rblk1 V c ⟨n, hn⟩) (accPrev1 V c ⟨n, hn⟩) p j).trans ?_
        exact congrArg (_ + ·) (point_share V c ⟨n, hn⟩ p j))

/-- At k = 7 the output block is the accumulator's new contents. -/
theorem out_eq_acc (c : Dev nD) (t : Fin cfg1.N) (h0 : ¬t.val % 8 = 0) (h1 : t.val % 8 = 7) :
    outAt1 V c t.val t.isLt = accAt1 V c t.val t.isLt :=
  ((outAt1_C V c t h0 h1).trans
    (outC_eq (F := Ideal) c (grid1.coords t) (ms1_0 t) (hs1_0 t) (ms1_1 t) (hs1_1 t) (ms1_2 t) (hs1_2 t) scM1_0 (Memref.isWhole_whole _) (mt (hcond1_0 t).mp h0) ((hcond1_1 t).mpr h1) (lblk1 V c t) (rblk1 V c t) (accPrev1 V c t))).trans
  ((accAt1_C V c t h0 h1).trans
    (soutC_eq (F := Ideal) c (grid1.coords t) (ms1_0 t) (hs1_0 t) (ms1_1 t) (hs1_1 t) (ms1_2 t) (hs1_2 t) scM1_0 (Memref.isWhole_whole _) (mt (hcond1_0 t).mp h0) ((hcond1_1 t).mpr h1) (lblk1 V c t) (rblk1 V c t) (accPrev1 V c t))).symm

theorem flushed_eq1 (c : Dev nD) (t : Fin cfg1.N) (hf : (cfg1.win 2).flush t = true) :
    (dat1 (F := Ideal) V c).flushed 2 t
      = ((cfg1.win 2).blk t).view.read (Elt Ideal) (mmN (larr1 V c) (rarr1 V c) : S8192x64.Idx → EReal) := by
  have h1 : t.val % 8 = 7 := (flush1_2 t).mp hf
  have h0 : ¬t.val % 8 = 0 := by omega
  have hN : t.val < 64 := lt_of_lt_of_eq t.isLt N_1
  show (cfg1.win 2).cut (grid1.coords t) ((dat1 (F := Ideal) V c).after 2 t) = _
  rw [after1_2, out_eq_acc V c t h0 h1]
  obtain ⟨-, -, -, -, e0, e1⟩ := idx_facts1 t
  funext y
  refine rows_of_shares (larr1 V c) (rarr1 V c) (accAt1 V c t.val t.isLt) (t.val / 8) (by omega)
    (fun p j => ?_) _ (((cfg1.win 2).blk t).view.emb y) ?_ ?_
  · have := acc_eq V c t.val t.isLt p j
    rw [h1] at this
    exact this
  · show win1_2.index t (0 : Fin 2) * 1024 + 1 * (y 0).val = 1024 * (t.val / 8) + (y 0).val; rw [e0]; omega
  · show win1_2.index t (1 : Fin 2) * 64 + 1 * (y 1).val = (y 1).val; rw [e1]; omega

theorem mem_blk1 (t : Fin cfg1.N) (i : S8192x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v5).slice (win1_2.rect t)).set ↔ _
  rw [View.set_slice_whole, Rect.mem_set_unit]
  exact Iff.rfl

theorem cover1 (i : S8192x64.Idx) : ∃ t : Fin cfg1.N, (cfg1.win 2).flush t = true ∧ i ∈ ((cfg1.win 2).blk t).view.set := by
  have hi0 : (i 0).val < 8192 := (i 0).isLt
  have hi1 : (i 1).val < 64 := (i 1).isLt
  have hN : cfg1.N = 64 := N_1
  have hlt : 8 * ((i 0).val / 1024) + 7 < cfg1.N := by rw [hN]; omega
  refine ⟨⟨8 * ((i 0).val / 1024) + 7, hlt⟩, (flush1_2 _).mpr (by show (8 * ((i 0).val / 1024) + 7) % 8 = 7; omega), ?_⟩
  rw [mem_blk1]
  obtain ⟨-, -, -, -, e0, e1⟩ := idx_facts1 ⟨8 * ((i 0).val / 1024) + 7, hlt⟩
  intro a
  match a with
  | ⟨0, _⟩ =>
    show win1_2.index _ (0 : Fin 2) * 1024 ≤ (i 0).val ∧ (i 0).val < win1_2.index _ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_2.index _ (1 : Fin 2) * 64 ≤ (i 1).val ∧ (i 1).val < win1_2.index _ (1 : Fin 2) * 64 + 64
    rw [e1]; omega

theorem arr1_eq (c : Dev nD) :
    (dat1 (F := Ideal) V c).arrAt 2 cfg1.N = (Cert.Spec.mmT (V c main_arg1) (V c main_v0) : S8192x64.Idx → EReal) :=
  (dat1 (F := Ideal) V c).arrAt_eq_of_cover 2 _ (flushed_eq1 V c) cover1

end Cert.KernelIdeal.FrV.R1

end
-- ==== Proof.KI.ValT2.lean ====
import proofs.«114230_j63153199120588_1_alg».proof.Proof.KI.Reg2
import proofs.«114230_j63153199120588_1_alg».proof.Proof.Spec
import proofs.«114230_j63153199120588_1_alg».proof.Proof.LibDotT
import proofs.«114230_j63153199120588_1_alg».proof.Proof.LibAccum
import proofs.«114230_j63153199120588_1_alg».proof.Proof.KI.ValDot
import Idealize.ShloMosaic.Lib.Pipeline.Value
import Idealize.ShloMosaic.Lib.ValueIdx
import Idealize.ShloMosaic.PureOps.Ideal.Laws

noncomputable section

namespace Cert.KernelIdeal.FrV.R2

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen Cert.KernelIdeal.Fr
open Cert.Spec (mmN mmT)
open Cert.Lib.Accum

section pieces
variable {F : FTy → Type} [FloatOps F]
variable (c : Dev nD) (i : grid2.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem soutA_eq (hc0 : cond2_0 i) (hc1 : ¬cond2_1 i) (x0 : Vec F S1024x1024 .f32) (x1 : Vec F S1024x64 .f32) :
    sout2_A_0 c i arg2 harg2 arg3 harg3 arg4 harg4 arg5 harg5 hc0 hc1 x0 x1 = k2_pay2 x0 x1 (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_words
  rw [View.canon_cons_unit_zero (S := S1024x64) hz]
  simp only [View.readAt_eq_ld, harg2.read_unread, harg3.read_unread, View.ld_unit_zero (S := S1024x1024) hz,
    View.ld_unit_zero (S := S1024x64) hz, View.readCov_unit_zero (S := S1024x64) _ hz]

theorem soutB_eq (hc0 : ¬cond2_0 i) (hc1 : ¬cond2_1 i) (x0 : Vec F S1024x1024 .f32) (x1 : Vec F S1024x64 .f32) (xs0 : Vec F S1024x64 .f32) :
    sout2_B_0 c i arg2 harg2 arg3 harg3 arg4 harg4 arg5 harg5 hc0 hc1 x0 x1 xs0 = k2_pay2 x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem soutC_eq (hc0 : ¬cond2_0 i) (hc1 : cond2_1 i) (x0 : Vec F S1024x1024 .f32) (x1 : Vec F S1024x64 .f32) (xs0 : Vec F S1024x64 .f32) :
    sout2_C_0 c i arg2 harg2 arg3 harg3 arg4 harg4 arg5 harg5 hc0 hc1 x0 x1 xs0 = k2_pay2 x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem outC_eq (hc0 : ¬cond2_0 i) (hc1 : cond2_1 i) (x0 : Vec F S1024x1024 .f32) (x1 : Vec F S1024x64 .f32) (xs0 : Vec F S1024x64 .f32) :
    out2_C_2 c i arg2 harg2 arg3 harg3 arg4 harg4 arg5 harg5 hc0 hc1 x0 x1 xs0 = k2_pay2 x0 x1 xs0 := by
  unfold out2_C_2
  rw [View.read_writes_eq_canon _ _ _ (cover2_C_2 c i arg2 harg2 arg3 harg3 arg4 harg4 arg5 harg5 hc0 hc1 x0 x1 xs0)]
  unfold kernelRun2_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz, View.readCov_unit_zero (S := S1024x64) _ hz]

end pieces

theorem pay1_ix2 (p : Fin 1024) (j : Fin 64) : k2_pay1 (F := Ideal) (ix2 p j) = 0 := by
  unfold k2_pay1
  simp only [shapeCast_self]
  exact Ideal.ofBits_zero_f32

theorem pay2_ix2 (x0 : Vec Ideal S1024x1024 .f32) (x1 xs : Vec Ideal S1024x64 .f32) (p : Fin 1024) (j : Fin 64) :
    k2_pay2 (F := Ideal) x0 x1 xs (ix2 p j) = xs (ix2 p j) + ∑ a : Fin 1024, x0 (ix2 a p) * x1 (ix2 a j) := by
  unfold k2_pay2
  simp only [shapeCast_self]
  refine congrArg (xs (ix2 p j) + ·) ?_
  exact Cert.Lib.DotT.matmul_zero_ix2_T (K := 1024) (M := 1024) (N := 64) dot_S1024x1024_S1024x64_S1024x64_0_0_1_1_n_n none
    dotT_rank dotT_size dotT_lhs_0 dotT_lhs_1 dotT_rhs_0 dotT_rhs_1 _ _ p j

theorem idx_facts2 : ∀ t : Fin cfg2.N, win2_0.index t (0 : Fin 2) = t.val % 8 ∧ win2_0.index t (1 : Fin 2) = t.val / 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

variable (V : (c : Dev nD) → (b : Ref sig .tc) → Buf (Elt Ideal) ((c : Thread nD τ).loc b))

abbrev lblk2 (c : Dev nD) (t : Fin cfg2.N) : Vec Ideal S1024x1024 .f32 := iblk2 V c 0 t
abbrev rblk2 (c : Dev nD) (t : Fin cfg2.N) : Vec Ideal S1024x64 .f32 := iblk2 V c 1 t
abbrev larr2 (c : Dev nD) : S8192x8192.Idx → EReal := tr (V c main_arg1)
abbrev rarr2 (c : Dev nD) : S8192x64.Idx → EReal := V c main_v5

theorem lblk2_apply (c : Dev nD) (t : Fin cfg2.N) (y : S1024x1024.Idx) (z : S8192x8192.Idx)
    (hz0 : (z 0).val = 1024 * (t.val % 8) + (y 0).val) (hz1 : (z 1).val = 1024 * (t.val / 8) + (y 1).val) :
    lblk2 V c t y = (V c main_arg1 : S8192x8192.Idx → EReal) z := by
  obtain ⟨e0, e1, -⟩ := idx_facts2 t
  unfold lblk2 iblk2
  rw [View.read_apply]
  show V c main_arg1 _ = V c main_arg1 _
  congr 1
  funext a
  apply Fin.ext
  match a with
  | ⟨0, _⟩ => show win2_0.index t (0 : Fin 2) * 1024 + 1 * (y 0).val = (z 0).val; rw [e0, hz0]; omega
  | ⟨1, _⟩ => show win2_0.index t (1 : Fin 2) * 1024 + 1 * (y 1).val = (z 1).val; rw [e1, hz1]; omega

theorem rblk2_apply (c : Dev nD) (t : Fin cfg2.N) (y : S1024x64.Idx) (z : S8192x64.Idx)
    (hz0 : (z 0).val = 1024 * (t.val % 8) + (y 0).val) (hz1 : (z 1).val = (y 1).val) :
    rblk2 V c t y = rarr2 V c z := by
  obtain ⟨-, -, e0, e1, -⟩ := idx_facts2 t
  unfold rblk2 iblk2
  rw [View.read_apply]
  show V c main_v5 _ = V c main_v5 _
  congr 1
  funext a
  apply Fin.ext
  match a with
  | ⟨0, _⟩ => show win2_1.index t (0 : Fin 2) * 1024 + 1 * (y 0).val = (z 0).val; rw [e0, hz0]; omega
  | ⟨1, _⟩ => show win2_1.index t (1 : Fin 2) * 64 + 1 * (y 1).val = (z 1).val; rw [e1, hz1]; omega

theorem point_share (c : Dev nD) (t : Fin cfg2.N) (p : Fin 1024) (j : Fin 64) :
    ∑ a : Fin 1024, lblk2 V c t (ix2 a p) * rblk2 V c t (ix2 a j) = share (larr2 V c) (rarr2 V c) (t.val / 8) p j (t.val % 8) := by
  have hN : t.val < 64 := lt_of_lt_of_eq t.isLt N_2
  exact blockprod_eq_share (larr2 V c) (rarr2 V c) (fun y => lblk2 V c t (ix2 (y 1) (y 0))) (rblk2 V c t) (t.val / 8) (t.val % 8)
    (by omega) (by omega) (fun y z hz0 hz1 => lblk2_apply V c t (ix2 (y 1) (y 0)) (ix2 (z 1) (z 0)) hz1 hz0) (rblk2_apply V c t) p j

/-- After point n = 8 i + k the accumulator holds the shares of blocks 0 … k of block row i. -/
theorem acc_eq (c : Dev nD) : ∀ (n : ℕ) (hn : n < cfg2.N) (p : Fin 1024) (j : Fin 64),
    accAt2 V c n hn (ix2 p j) = ∑ k ∈ Finset.range (n % 8 + 1), share (larr2 V c) (rarr2 V c) (n / 8) p j k :=
  acc_shares (larr2 V c) (rarr2 V c) (accAt2 V c)
    (fun n hn h0 p j => by
      have h1 : ¬n % 8 = 7 := by omega
      refine (congrFun (accAt2_A V c ⟨n, hn⟩ h0 h1) (ix2 p j)).trans ?_
      refine (congrFun (soutA_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) ((hcond2_0 ⟨n, hn⟩).mpr h0) (mt (hcond2_1 ⟨n, hn⟩).mp h1)
        (lblk2 V c ⟨n, hn⟩) (rblk2 V c ⟨n, hn⟩)) (ix2 p j)).trans ?_
      refine (pay2_ix2 (lblk2 V c ⟨n, hn⟩) (rblk2 V c ⟨n, hn⟩) (k2_pay1 (F := Ideal)) p j).trans ?_
      rw [pay1_ix2, zero_add]
      exact point_share V c ⟨n, hn⟩ p j)
    (fun n hn h0 p j => by
      by_cases h1 : n % 8 = 7
      · refine (congrFun (accAt2_C V c ⟨n, hn⟩ h0 h1) (ix2 p j)).trans ?_
        refine (congrFun (soutC_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) (mt (hcond2_0 ⟨n, hn⟩).mp h0) ((hcond2_1 ⟨n, hn⟩).mpr h1)
          (lblk2 V c ⟨n, hn⟩) (rblk2 V c ⟨n, hn⟩) (accPrev2 V c ⟨n, hn⟩)) (ix2 p j)).trans ?_
        refine (pay2_ix2 (lblk2 V c ⟨n, hn⟩) (rblk2 V c ⟨n, hn⟩) (accPrev2 V c ⟨n, hn⟩) p j).trans ?_
        exact congrArg (_ + ·) (point_share V c ⟨n, hn⟩ p j)
      · refine (congrFun (accAt2_B V c ⟨n, hn⟩ h0 h1) (ix2 p j)).trans ?_
        refine (congrFun (soutB_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) (mt (hcond2_0 ⟨n, hn⟩).mp h0) (mt (hcond2_1 ⟨n, hn⟩).mp h1)
          (lblk2 V c ⟨n, hn⟩) (rblk2 V c ⟨n, hn⟩) (accPrev2 V c ⟨n, hn⟩)) (ix2 p j)).trans ?_
        refine (pay2_ix2 (lblk2 V c ⟨n, hn⟩) (rblk2 V c ⟨n, hn⟩) (accPrev2 V c ⟨n, hn⟩) p j).trans ?_
        exact congrArg (_ + ·) (point_share V c ⟨n, hn⟩ p j))

/-- At k = 7 the output block is the accumulator's new contents. -/
theorem out_eq_acc (c : Dev nD) (t : Fin cfg2.N) (h0 : ¬t.val % 8 = 0) (h1 : t.val % 8 = 7) :
    outAt2 V c t.val t.isLt = accAt2 V c t.val t.isLt :=
  ((outAt2_C V c t h0 h1).trans
    (outC_eq (F := Ideal) c (grid2.coords t) (ms2_0 t) (hs2_0 t) (ms2_1 t) (hs2_1 t) (ms2_2 t) (hs2_2 t) scM2_0 (Memref.isWhole_whole _) (mt (hcond2_0 t).mp h0) ((hcond2_1 t).mpr h1) (lblk2 V c t) (rblk2 V c t) (accPrev2 V c t))).trans
  ((accAt2_C V c t h0 h1).trans
    (soutC_eq (F := Ideal) c (grid2.coords t) (ms2_0 t) (hs2_0 t) (ms2_1 t) (hs2_1 t) (ms2_2 t) (hs2_2 t) scM2_0 (Memref.isWhole_whole _) (mt (hcond2_0 t).mp h0) ((hcond2_1 t).mpr h1) (lblk2 V c t) (rblk2 V c t) (accPrev2 V c t))).symm

theorem flushed_eq2 (c : Dev nD) (t : Fin cfg2.N) (hf : (cfg2.win 2).flush t = true) :
    (dat2 (F := Ideal) V c).flushed 2 t
      = ((cfg2.win 2).blk t).view.read (Elt Ideal) (mmN (larr2 V c) (rarr2 V c) : S8192x64.Idx → EReal) := by
  have h1 : t.val % 8 = 7 := (flush2_2 t).mp hf
  have h0 : ¬t.val % 8 = 0 := by omega
  have hN : t.val < 64 := lt_of_lt_of_eq t.isLt N_2
  show (cfg2.win 2).cut (grid2.coords t) ((dat2 (F := Ideal) V c).after 2 t) = _
  rw [after2_2, out_eq_acc V c t h0 h1]
  obtain ⟨-, -, -, -, e0, e1⟩ := idx_facts2 t
  funext y
  refine rows_of_shares (larr2 V c) (rarr2 V c) (accAt2 V c t.val t.isLt) (t.val / 8) (by omega)
    (fun p j => ?_) _ (((cfg2.win 2).blk t).view.emb y) ?_ ?_
  · have := acc_eq V c t.val t.isLt p j
    rw [h1] at this
    exact this
  · show win2_2.index t (0 : Fin 2) * 1024 + 1 * (y 0).val = 1024 * (t.val / 8) + (y 0).val; rw [e0]; omega
  · show win2_2.index t (1 : Fin 2) * 64 + 1 * (y 1).val = (y 1).val; rw [e1]; omega

theorem mem_blk2 (t : Fin cfg2.N) (i : S8192x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v11).slice (win2_2.rect t)).set ↔ _
  rw [View.set_slice_whole, Rect.mem_set_unit]
  exact Iff.rfl

theorem cover2 (i : S8192x64.Idx) : ∃ t : Fin cfg2.N, (cfg2.win 2).flush t = true ∧ i ∈ ((cfg2.win 2).blk t).view.set := by
  have hi0 : (i 0).val < 8192 := (i 0).isLt
  have hi1 : (i 1).val < 64 := (i 1).isLt
  have hN : cfg2.N = 64 := N_2
  have hlt : 8 * ((i 0).val / 1024) + 7 < cfg2.N := by rw [hN]; omega
  refine ⟨⟨8 * ((i 0).val / 1024) + 7, hlt⟩, (flush2_2 _).mpr (by show (8 * ((i 0).val / 1024) + 7) % 8 = 7; omega), ?_⟩
  rw [mem_blk2]
  obtain ⟨-, -, -, -, e0, e1⟩ := idx_facts2 ⟨8 * ((i 0).val / 1024) + 7, hlt⟩
  intro a
  match a with
  | ⟨0, _⟩ =>
    show win2_2.index _ (0 : Fin 2) * 1024 ≤ (i 0).val ∧ (i 0).val < win2_2.index _ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win2_2.index _ (1 : Fin 2) * 64 ≤ (i 1).val ∧ (i 1).val < win2_2.index _ (1 : Fin 2) * 64 + 64
    rw [e1]; omega

theorem arr2_eq (c : Dev nD) :
    (dat2 (F := Ideal) V c).arrAt 2 cfg2.N = (Cert.Spec.mmT (V c main_arg1) (V c main_v5) : S8192x64.Idx → EReal) :=
  (dat2 (F := Ideal) V c).arrAt_eq_of_cover 2 _ (flushed_eq2 V c) cover2

end Cert.KernelIdeal.FrV.R2

end
-- ==== Proof.KI.ValN3.lean ====
import proofs.«114230_j63153199120588_1_alg».proof.Proof.KI.Reg3
import proofs.«114230_j63153199120588_1_alg».proof.Proof.Spec
import proofs.«114230_j63153199120588_1_alg».proof.Proof.LibDot2
import proofs.«114230_j63153199120588_1_alg».proof.Proof.LibAccum
import proofs.«114230_j63153199120588_1_alg».proof.Proof.KI.ValDot
import Idealize.ShloMosaic.Lib.Pipeline.Value
import Idealize.ShloMosaic.Lib.ValueIdx
import Idealize.ShloMosaic.PureOps.Ideal.Laws

noncomputable section

namespace Cert.KernelIdeal.FrV.R3

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen Cert.KernelIdeal.Fr
open Cert.Spec (mmN)
open Cert.Lib.Accum

section pieces
variable {F : FTy → Type} [FloatOps F]
variable (c : Dev nD) (i : grid3.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem soutA_eq (hc0 : cond3_0 i) (hc1 : ¬cond3_1 i) (x0 : Vec F S1024x1024 .f32) (x1 : Vec F S1024x64 .f32) :
    sout3_A_0 c i arg2 harg2 arg3 harg3 arg4 harg4 arg5 harg5 hc0 hc1 x0 x1 = k3_pay2 x0 x1 (k3_pay1 (F := F)) := by
  unfold sout3_A_0
  rw [View.read_writes_eq_canon _ _ _ (scover3_A_0 c i arg2 harg2 arg3 harg3 arg4 harg4 arg5 harg5 hc0 hc1 x0 x1)]
  unfold kernelRun3_A
  dsimp only
  try sl_unfold_words
  rw [View.canon_cons_unit_zero (S := S1024x64) hz]
  simp only [View.readAt_eq_ld, harg2.read_unread, harg3.read_unread, View.ld_unit_zero (S := S1024x1024) hz,
    View.ld_unit_zero (S := S1024x64) hz, View.readCov_unit_zero (S := S1024x64) _ hz]

theorem soutB_eq (hc0 : ¬cond3_0 i) (hc1 : ¬cond3_1 i) (x0 : Vec F S1024x1024 .f32) (x1 : Vec F S1024x64 .f32) (xs0 : Vec F S1024x64 .f32) :
    sout3_B_0 c i arg2 harg2 arg3 harg3 arg4 harg4 arg5 harg5 hc0 hc1 x0 x1 xs0 = k3_pay2 x0 x1 xs0 := by
  unfold sout3_B_0
  rw [View.read_writes_eq_canon _ _ _ (scover3_B_0 c i arg2 harg2 arg3 harg3 arg4 harg4 arg5 harg5 hc0 hc1 x0 x1 xs0)]
  unfold kernelRun3_B
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem soutC_eq (hc0 : ¬cond3_0 i) (hc1 : cond3_1 i) (x0 : Vec F S1024x1024 .f32) (x1 : Vec F S1024x64 .f32) (xs0 : Vec F S1024x64 .f32) :
    sout3_C_0 c i arg2 harg2 arg3 harg3 arg4 harg4 arg5 harg5 hc0 hc1 x0 x1 xs0 = k3_pay2 x0 x1 xs0 := by
  unfold sout3_C_0
  rw [View.read_writes_eq_canon _ _ _ (scover3_C_0 c i arg2 harg2 arg3 harg3 arg4 harg4 arg5 harg5 hc0 hc1 x0 x1 xs0)]
  unfold kernelRun3_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem outC_eq (hc0 : ¬cond3_0 i) (hc1 : cond3_1 i) (x0 : Vec F S1024x1024 .f32) (x1 : Vec F S1024x64 .f32) (xs0 : Vec F S1024x64 .f32) :
    out3_C_2 c i arg2 harg2 arg3 harg3 arg4 harg4 arg5 harg5 hc0 hc1 x0 x1 xs0 = k3_pay2 x0 x1 xs0 := by
  unfold out3_C_2
  rw [View.read_writes_eq_canon _ _ _ (cover3_C_2 c i arg2 harg2 arg3 harg3 arg4 harg4 arg5 harg5 hc0 hc1 x0 x1 xs0)]
  unfold kernelRun3_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz, View.readCov_unit_zero (S := S1024x64) _ hz]

end pieces

theorem pay1_ix2 (p : Fin 1024) (j : Fin 64) : k3_pay1 (F := Ideal) (ix2 p j) = 0 := by
  unfold k3_pay1
  refine (congrFun (shapeCast_self _ _) (ix2 p j)).trans ?_
  exact Ideal.ofBits_zero_f32

theorem pay2_ix2 (x0 : Vec Ideal S1024x1024 .f32) (x1 xs : Vec Ideal S1024x64 .f32) (p : Fin 1024) (j : Fin 64) :
    k3_pay2 x0 x1 xs (ix2 p j) = xs (ix2 p j) + ∑ a : Fin 1024, x0 (ix2 p a) * x1 (ix2 a j) := by
  unfold k3_pay2
  refine (congrFun (shapeCast_self _ _) (ix2 p j)).trans ?_
  refine congrArg (xs (ix2 p j) + ·) ?_
  refine (Cert.Lib.Dot2.matmul_zero_ix2 (M := 1024) (K := 1024) (N := 64) dot_S1024x1024_S1024x64_S1024x64_1_0_0_1_n_n none
    dotN_rank dotN_size dotN_lhs_0 dotN_lhs_1 dotN_rhs_0 dotN_rhs_1 _ _ p j).trans ?_
  refine Finset.sum_congr rfl fun a _ => ?_
  exact congrArg (x0 (ix2 p a) * ·) (congrFun (shapeCast_self x1 _) (ix2 a j))

theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

variable (V : (c : Dev nD) → (b : Ref sig .tc) → Buf (Elt Ideal) ((c : Thread nD τ).loc b))

abbrev lblk3 (c : Dev nD) (t : Fin cfg3.N) : Vec Ideal S1024x1024 .f32 := iblk3 V c 0 t
abbrev rblk3 (c : Dev nD) (t : Fin cfg3.N) : Vec Ideal S1024x64 .f32 := iblk3 V c 1 t
abbrev larr3 (c : Dev nD) : S8192x8192.Idx → EReal := V c main_arg1
abbrev rarr3 (c : Dev nD) : S8192x64.Idx → EReal := V c main_v19

theorem lblk3_apply (c : Dev nD) (t : Fin cfg3.N) (y : S1024x1024.Idx) (z : S8192x8192.Idx)
    (hz0 : (z 0).val = 1024 * (t.val / 8) + (y 0).val) (hz1 : (z 1).val = 1024 * (t.val % 8) + (y 1).val) :
    lblk3 V c t y = larr3 V c z := by
  obtain ⟨e0, e1, -⟩ := idx_facts3 t
  unfold lblk3 iblk3
  rw [View.read_apply]
  show V c main_arg1 _ = V c main_arg1 _
  congr 1
  funext a
  apply Fin.ext
  match a with
  | ⟨0, _⟩ => show win3_0.index t (0 : Fin 2) * 1024 + 1 * (y 0).val = (z 0).val; rw [e0, hz0]; omega
  | ⟨1, _⟩ => show win3_0.index t (1 : Fin 2) * 1024 + 1 * (y 1).val = (z 1).val; rw [e1, hz1]; omega

theorem rblk3_apply (c : Dev nD) (t : Fin cfg3.N) (y : S1024x64.Idx) (z : S8192x64.Idx)
    (hz0 : (z 0).val = 1024 * (t.val % 8) + (y 0).val) (hz1 : (z 1).val = (y 1).val) :
    rblk3 V c t y = rarr3 V c z := by
  obtain ⟨-, -, e0, e1, -⟩ := idx_facts3 t
  unfold rblk3 iblk3
  rw [View.read_apply]
  show V c main_v19 _ = V c main_v19 _
  congr 1
  funext a
  apply Fin.ext
  match a with
  | ⟨0, _⟩ => show win3_1.index t (0 : Fin 2) * 1024 + 1 * (y 0).val = (z 0).val; rw [e0, hz0]; omega
  | ⟨1, _⟩ => show win3_1.index t (1 : Fin 2) * 64 + 1 * (y 1).val = (z 1).val; rw [e1, hz1]; omega

theorem point_share (c : Dev nD) (t : Fin cfg3.N) (p : Fin 1024) (j : Fin 64) :
    ∑ a : Fin 1024, lblk3 V c t (ix2 p a) * rblk3 V c t (ix2 a j) = share (larr3 V c) (rarr3 V c) (t.val / 8) p j (t.val % 8) := by
  have hN : t.val < 64 := lt_of_lt_of_eq t.isLt N_3
  exact blockprod_eq_share (larr3 V c) (rarr3 V c) (lblk3 V c t) (rblk3 V c t) (t.val / 8) (t.val % 8) (by omega) (by omega)
    (lblk3_apply V c t) (rblk3_apply V c t) p j

/-- After point n = 8 i + k the accumulator holds the shares of blocks 0 … k of block row i. -/
theorem acc_eq (c : Dev nD) : ∀ (n : ℕ) (hn : n < cfg3.N) (p : Fin 1024) (j : Fin 64),
    accAt3 V c n hn (ix2 p j) = ∑ k ∈ Finset.range (n % 8 + 1), share (larr3 V c) (rarr3 V c) (n / 8) p j k :=
  acc_shares (larr3 V c) (rarr3 V c) (accAt3 V c)
    (fun n hn h0 p j => by
      have h1 : ¬n % 8 = 7 := by omega
      refine (congrFun (accAt3_A V c ⟨n, hn⟩ h0 h1) (ix2 p j)).trans ?_
      refine (congrFun (soutA_eq (F := Ideal) c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _) ((hcond3_0 ⟨n, hn⟩).mpr h0) (mt (hcond3_1 ⟨n, hn⟩).mp h1)
        (lblk3 V c ⟨n, hn⟩) (rblk3 V c ⟨n, hn⟩)) (ix2 p j)).trans ?_
      refine (pay2_ix2 (lblk3 V c ⟨n, hn⟩) (rblk3 V c ⟨n, hn⟩) (k3_pay1 (F := Ideal)) p j).trans ?_
      rw [pay1_ix2, zero_add]
      exact point_share V c ⟨n, hn⟩ p j)
    (fun n hn h0 p j => by
      by_cases h1 : n % 8 = 7
      · refine (congrFun (accAt3_C V c ⟨n, hn⟩ h0 h1) (ix2 p j)).trans ?_
        refine (congrFun (soutC_eq (F := Ideal) c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _) (mt (hcond3_0 ⟨n, hn⟩).mp h0) ((hcond3_1 ⟨n, hn⟩).mpr h1)
          (lblk3 V c ⟨n, hn⟩) (rblk3 V c ⟨n, hn⟩) (accPrev3 V c ⟨n, hn⟩)) (ix2 p j)).trans ?_
        refine (pay2_ix2 (lblk3 V c ⟨n, hn⟩) (rblk3 V c ⟨n, hn⟩) (accPrev3 V c ⟨n, hn⟩) p j).trans ?_
        exact congrArg (_ + ·) (point_share V c ⟨n, hn⟩ p j)
      · refine (congrFun (accAt3_B V c ⟨n, hn⟩ h0 h1) (ix2 p j)).trans ?_
        refine (congrFun (soutB_eq (F := Ideal) c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _) (mt (hcond3_0 ⟨n, hn⟩).mp h0) (mt (hcond3_1 ⟨n, hn⟩).mp h1)
          (lblk3 V c ⟨n, hn⟩) (rblk3 V c ⟨n, hn⟩) (accPrev3 V c ⟨n, hn⟩)) (ix2 p j)).trans ?_
        refine (pay2_ix2 (lblk3 V c ⟨n, hn⟩) (rblk3 V c ⟨n, hn⟩) (accPrev3 V c ⟨n, hn⟩) p j).trans ?_
        exact congrArg (_ + ·) (point_share V c ⟨n, hn⟩ p j))

/-- At k = 7 the output block is the accumulator's new contents. -/
theorem out_eq_acc (c : Dev nD) (t : Fin cfg3.N) (h0 : ¬t.val % 8 = 0) (h1 : t.val % 8 = 7) :
    outAt3 V c t.val t.isLt = accAt3 V c t.val t.isLt :=
  ((outAt3_C V c t h0 h1).trans
    (outC_eq (F := Ideal) c (grid3.coords t) (ms3_0 t) (hs3_0 t) (ms3_1 t) (hs3_1 t) (ms3_2 t) (hs3_2 t) scM3_0 (Memref.isWhole_whole _) (mt (hcond3_0 t).mp h0) ((hcond3_1 t).mpr h1) (lblk3 V c t) (rblk3 V c t) (accPrev3 V c t))).trans
  ((accAt3_C V c t h0 h1).trans
    (soutC_eq (F := Ideal) c (grid3.coords t) (ms3_0 t) (hs3_0 t) (ms3_1 t) (hs3_1 t) (ms3_2 t) (hs3_2 t) scM3_0 (Memref.isWhole_whole _) (mt (hcond3_0 t).mp h0) ((hcond3_1 t).mpr h1) (lblk3 V c t) (rblk3 V c t) (accPrev3 V c t))).symm

theorem flushed_eq3 (c : Dev nD) (t : Fin cfg3.N) (hf : (cfg3.win 2).flush t = true) :
    (dat3 (F := Ideal) V c).flushed 2 t
      = ((cfg3.win 2).blk t).view.read (Elt Ideal) (mmN (larr3 V c) (rarr3 V c) : S8192x64.Idx → EReal) := by
  have h1 : t.val % 8 = 7 := (flush3_2 t).mp hf
  have h0 : ¬t.val % 8 = 0 := by omega
  have hN : t.val < 64 := lt_of_lt_of_eq t.isLt N_3
  show (cfg3.win 2).cut (grid3.coords t) ((dat3 (F := Ideal) V c).after 2 t) = _
  rw [after3_2, out_eq_acc V c t h0 h1]
  obtain ⟨-, -, -, -, e0, e1⟩ := idx_facts3 t
  funext y
  refine rows_of_shares (larr3 V c) (rarr3 V c) (accAt3 V c t.val t.isLt) (t.val / 8) (by omega)
    (fun p j => ?_) _ (((cfg3.win 2).blk t).view.emb y) ?_ ?_
  · have := acc_eq V c t.val t.isLt p j
    rw [h1] at this
    exact this
  · show win3_2.index t (0 : Fin 2) * 1024 + 1 * (y 0).val = 1024 * (t.val / 8) + (y 0).val; rw [e0]; omega
  · show win3_2.index t (1 : Fin 2) * 64 + 1 * (y 1).val = (y 1).val; rw [e1]; omega

theorem mem_blk3 (t : Fin cfg3.N) (i : S8192x64.Idx) :
    i ∈ ((cfg3.win 2).blk t).view.set ↔ ∀ a : Fin 2, win3_2.index t a * S1024x64.size a ≤ (i a).val ∧ (i a).val < win3_2.index t a * S1024x64.size a + S1024x64.size a := by
  show i ∈ ((View.whole main_v24).slice (win3_2.rect t)).set ↔ _
  rw [View.set_slice_whole, Rect.mem_set_unit]
  exact Iff.rfl

theorem cover3 (i : S8192x64.Idx) : ∃ t : Fin cfg3.N, (cfg3.win 2).flush t = true ∧ i ∈ ((cfg3.win 2).blk t).view.set := by
  have hi0 : (i 0).val < 8192 := (i 0).isLt
  have hi1 : (i 1).val < 64 := (i 1).isLt
  have hN : cfg3.N = 64 := N_3
  have hlt : 8 * ((i 0).val / 1024) + 7 < cfg3.N := by rw [hN]; omega
  refine ⟨⟨8 * ((i 0).val / 1024) + 7, hlt⟩, (flush3_2 _).mpr (by show (8 * ((i 0).val / 1024) + 7) % 8 = 7; omega), ?_⟩
  rw [mem_blk3]
  obtain ⟨-, -, -, -, e0, e1⟩ := idx_facts3 ⟨8 * ((i 0).val / 1024) + 7, hlt⟩
  intro a
  match a with
  | ⟨0, _⟩ =>
    show win3_2.index _ (0 : Fin 2) * 1024 ≤ (i 0).val ∧ (i 0).val < win3_2.index _ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win3_2.index _ (1 : Fin 2) * 64 ≤ (i 1).val ∧ (i 1).val < win3_2.index _ (1 : Fin 2) * 64 + 64
    rw [e1]; omega

theorem arr3_eq (c : Dev nD) :
    (dat3 (F := Ideal) V c).arrAt 2 cfg3.N = (Cert.Spec.mmN (V c main_arg1) (V c main_v19) : S8192x64.Idx → EReal) :=
  (dat3 (F := Ideal) V c).arrAt_eq_of_cover 2 _ (flushed_eq3 V c) cover3

end Cert.KernelIdeal.FrV.R3

end
-- ==== Proof.KI.ValN4.lean ====
import proofs.«114230_j63153199120588_1_alg».proof.Proof.KI.Reg4
import proofs.«114230_j63153199120588_1_alg».proof.Proof.Spec
import proofs.«114230_j63153199120588_1_alg».proof.Proof.LibDot2
import proofs.«114230_j63153199120588_1_alg».proof.Proof.LibAccum
import proofs.«114230_j63153199120588_1_alg».proof.Proof.KI.ValDot
import Idealize.ShloMosaic.Lib.Pipeline.Value
import Idealize.ShloMosaic.Lib.ValueIdx
import Idealize.ShloMosaic.PureOps.Ideal.Laws

noncomputable section

namespace Cert.KernelIdeal.FrV.R4

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen Cert.KernelIdeal.Fr
open Cert.Spec (mmN)
open Cert.Lib.Accum

section pieces
variable {F : FTy → Type} [FloatOps F]
variable (c : Dev nD) (i : grid4.Coords) (arg2 : Memref sig .tc .vmem S1024x1024 .f32) (harg2 : arg2.IsWhole)
  (arg3 : Memref sig .tc .vmem S1024x64 .f32) (harg3 : arg3.IsWhole) (arg4 : Memref sig .tc .vmem S1024x64 .f32) (harg4 : arg4.IsWhole)
  (arg5 : Memref sig .tc .vmem S1024x64 .f32) (harg5 : arg5.IsWhole)

theorem soutA_eq (hc0 : cond4_0 i) (hc1 : ¬cond4_1 i) (x0 : Vec F S1024x1024 .f32) (x1 : Vec F S1024x64 .f32) :
    sout4_A_0 c i arg2 harg2 arg3 harg3 arg4 harg4 arg5 harg5 hc0 hc1 x0 x1 = k4_pay2 x0 x1 (k4_pay1 (F := F)) := by
  unfold sout4_A_0
  rw [View.read_writes_eq_canon _ _ _ (scover4_A_0 c i arg2 harg2 arg3 harg3 arg4 harg4 arg5 harg5 hc0 hc1 x0 x1)]
  unfold kernelRun4_A
  dsimp only
  try sl_unfold_words
  rw [View.canon_cons_unit_zero (S := S1024x64) hz]
  simp only [View.readAt_eq_ld, harg2.read_unread, harg3.read_unread, View.ld_unit_zero (S := S1024x1024) hz,
    View.ld_unit_zero (S := S1024x64) hz, View.readCov_unit_zero (S := S1024x64) _ hz]

theorem soutB_eq (hc0 : ¬cond4_0 i) (hc1 : ¬cond4_1 i) (x0 : Vec F S1024x1024 .f32) (x1 : Vec F S1024x64 .f32) (xs0 : Vec F S1024x64 .f32) :
    sout4_B_0 c i arg2 harg2 arg3 harg3 arg4 harg4 arg5 harg5 hc0 hc1 x0 x1 xs0 = k4_pay2 x0 x1 xs0 := by
  unfold sout4_B_0
  rw [View.read_writes_eq_canon _ _ _ (scover4_B_0 c i arg2 harg2 arg3 harg3 arg4 harg4 arg5 harg5 hc0 hc1 x0 x1 xs0)]
  unfold kernelRun4_B
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem soutC_eq (hc0 : ¬cond4_0 i) (hc1 : cond4_1 i) (x0 : Vec F S1024x1024 .f32) (x1 : Vec F S1024x64 .f32) (xs0 : Vec F S1024x64 .f32) :
    sout4_C_0 c i arg2 harg2 arg3 harg3 arg4 harg4 arg5 harg5 hc0 hc1 x0 x1 xs0 = k4_pay2 x0 x1 xs0 := by
  unfold sout4_C_0
  rw [View.read_writes_eq_canon _ _ _ (scover4_C_0 c i arg2 harg2 arg3 harg3 arg4 harg4 arg5 harg5 hc0 hc1 x0 x1 xs0)]
  unfold kernelRun4_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz]

theorem outC_eq (hc0 : ¬cond4_0 i) (hc1 : cond4_1 i) (x0 : Vec F S1024x1024 .f32) (x1 : Vec F S1024x64 .f32) (xs0 : Vec F S1024x64 .f32) :
    out4_C_2 c i arg2 harg2 arg3 harg3 arg4 harg4 arg5 harg5 hc0 hc1 x0 x1 xs0 = k4_pay2 x0 x1 xs0 := by
  unfold out4_C_2
  rw [View.read_writes_eq_canon _ _ _ (cover4_C_2 c i arg2 harg2 arg3 harg3 arg4 harg4 arg5 harg5 hc0 hc1 x0 x1 xs0)]
  unfold kernelRun4_C
  dsimp only
  try sl_unfold_words
  rw [View.canon_unit_zero (S := S1024x64) hz]
  simp only [View.readAt_eq_ld, harg2.read_unread, harg3.read_unread, harg5.read_unread, View.ld_unit_zero (S := S1024x1024) hz,
    View.ld_unit_zero (S := S1024x64) hz, View.readCov_unit_zero (S := S1024x64) _ hz]

end pieces

theorem pay1_ix2 (p : Fin 1024) (j : Fin 64) : k4_pay1 (F := Ideal) (ix2 p j) = 0 := by
  unfold k4_pay1
  refine (congrFun (shapeCast_self _ _) (ix2 p j)).trans ?_
  exact Ideal.ofBits_zero_f32

theorem pay2_ix2 (x0 : Vec Ideal S1024x1024 .f32) (x1 xs : Vec Ideal S1024x64 .f32) (p : Fin 1024) (j : Fin 64) :
    k4_pay2 x0 x1 xs (ix2 p j) = xs (ix2 p j) + ∑ a : Fin 1024, x0 (ix2 p a) * x1 (ix2 a j) := by
  unfold k4_pay2
  refine (congrFun (shapeCast_self _ _) (ix2 p j)).trans ?_
  refine congrArg (xs (ix2 p j) + ·) ?_
  refine (Cert.Lib.Dot2.matmul_zero_ix2 (M := 1024) (K := 1024) (N := 64) dot_S1024x1024_S1024x64_S1024x64_1_0_0_1_n_n none
    dotN_rank dotN_size dotN_lhs_0 dotN_lhs_1 dotN_rhs_0 dotN_rhs_1 _ _ p j).trans ?_
  refine Finset.sum_congr rfl fun a _ => ?_
  exact congrArg (x0 (ix2 p a) * ·) (congrFun (shapeCast_self x1 _) (ix2 a j))

theorem idx_facts4 : ∀ t : Fin cfg4.N, win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0 :=
  (by decide +kernel : ∀ t : Fin grid4.N, _)

variable (V : (c : Dev nD) → (b : Ref sig .tc) → Buf (Elt Ideal) ((c : Thread nD τ).loc b))

abbrev lblk4 (c : Dev nD) (t : Fin cfg4.N) : Vec Ideal S1024x1024 .f32 := iblk4 V c 0 t
abbrev rblk4 (c : Dev nD) (t : Fin cfg4.N) : Vec Ideal S1024x64 .f32 := iblk4 V c 1 t
abbrev larr4 (c : Dev nD) : S8192x8192.Idx → EReal := V c main_arg1
abbrev rarr4 (c : Dev nD) : S8192x64.Idx → EReal := V c main_v24

theorem lblk4_apply (c : Dev nD) (t : Fin cfg4.N) (y : S1024x1024.Idx) (z : S8192x8192.Idx)
    (hz0 : (z 0).val = 1024 * (t.val / 8) + (y 0).val) (hz1 : (z 1).val = 1024 * (t.val % 8) + (y 1).val) :
    lblk4 V c t y = larr4 V c z := by
  obtain ⟨e0, e1, -⟩ := idx_facts4 t
  unfold lblk4 iblk4
  rw [View.read_apply]
  show V c main_arg1 _ = V c main_arg1 _
  congr 1
  funext a
  apply Fin.ext
  match a with
  | ⟨0, _⟩ => show win4_0.index t (0 : Fin 2) * 1024 + 1 * (y 0).val = (z 0).val; rw [e0, hz0]; omega
  | ⟨1, _⟩ => show win4_0.index t (1 : Fin 2) * 1024 + 1 * (y 1).val = (z 1).val; rw [e1, hz1]; omega

theorem rblk4_apply (c : Dev nD) (t : Fin cfg4.N) (y : S1024x64.Idx) (z : S8192x64.Idx)
    (hz0 : (z 0).val = 1024 * (t.val % 8) + (y 0).val) (hz1 : (z 1).val = (y 1).val) :
    rblk4 V c t y = rarr4 V c z := by
  obtain ⟨-, -, e0, e1, -⟩ := idx_facts4 t
  unfold rblk4 iblk4
  rw [View.read_apply]
  show V c main_v24 _ = V c main_v24 _
  congr 1
  funext a
  apply Fin.ext
  match a with
  | ⟨0, _⟩ => show win4_1.index t (0 : Fin 2) * 1024 + 1 * (y 0).val = (z 0).val; rw [e0, hz0]; omega
  | ⟨1, _⟩ => show win4_1.index t (1 : Fin 2) * 64 + 1 * (y 1).val = (z 1).val; rw [e1, hz1]; omega

theorem point_share (c : Dev nD) (t : Fin cfg4.N) (p : Fin 1024) (j : Fin 64) :
    ∑ a : Fin 1024, lblk4 V c t (ix2 p a) * rblk4 V c t (ix2 a j) = share (larr4 V c) (rarr4 V c) (t.val / 8) p j (t.val % 8) := by
  have hN : t.val < 64 := lt_of_lt_of_eq t.isLt N_4
  exact blockprod_eq_share (larr4 V c) (rarr4 V c) (lblk4 V c t) (rblk4 V c t) (t.val / 8) (t.val % 8) (by omega) (by omega)
    (lblk4_apply V c t) (rblk4_apply V c t) p j

/-- After point n = 8 i + k the accumulator holds the shares of blocks 0 … k of block row i. -/
theorem acc_eq (c : Dev nD) : ∀ (n : ℕ) (hn : n < cfg4.N) (p : Fin 1024) (j : Fin 64),
    accAt4 V c n hn (ix2 p j) = ∑ k ∈ Finset.range (n % 8 + 1), share (larr4 V c) (rarr4 V c) (n / 8) p j k :=
  acc_shares (larr4 V c) (rarr4 V c) (accAt4 V c)
    (fun n hn h0 p j => by
      have h1 : ¬n % 8 = 7 := by omega
      refine (congrFun (accAt4_A V c ⟨n, hn⟩ h0 h1) (ix2 p j)).trans ?_
      refine (congrFun (soutA_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) ((hcond4_0 ⟨n, hn⟩).mpr h0) (mt (hcond4_1 ⟨n, hn⟩).mp h1)
        (lblk4 V c ⟨n, hn⟩) (rblk4 V c ⟨n, hn⟩)) (ix2 p j)).trans ?_
      refine (pay2_ix2 (lblk4 V c ⟨n, hn⟩) (rblk4 V c ⟨n, hn⟩) (k4_pay1 (F := Ideal)) p j).trans ?_
      rw [pay1_ix2, zero_add]
      exact point_share V c ⟨n, hn⟩ p j)
    (fun n hn h0 p j => by
      by_cases h1 : n % 8 = 7
      · refine (congrFun (accAt4_C V c ⟨n, hn⟩ h0 h1) (ix2 p j)).trans ?_
        refine (congrFun (soutC_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (mt (hcond4_0 ⟨n, hn⟩).mp h0) ((hcond4_1 ⟨n, hn⟩).mpr h1)
          (lblk4 V c ⟨n, hn⟩) (rblk4 V c ⟨n, hn⟩) (accPrev4 V c ⟨n, hn⟩)) (ix2 p j)).trans ?_
        refine (pay2_ix2 (lblk4 V c ⟨n, hn⟩) (rblk4 V c ⟨n, hn⟩) (accPrev4 V c ⟨n, hn⟩) p j).trans ?_
        exact congrArg (_ + ·) (point_share V c ⟨n, hn⟩ p j)
      · refine (congrFun (accAt4_B V c ⟨n, hn⟩ h0 h1) (ix2 p j)).trans ?_
        refine (congrFun (soutB_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (mt (hcond4_0 ⟨n, hn⟩).mp h0) (mt (hcond4_1 ⟨n, hn⟩).mp h1)
          (lblk4 V c ⟨n, hn⟩) (rblk4 V c ⟨n, hn⟩) (accPrev4 V c ⟨n, hn⟩)) (ix2 p j)).trans ?_
        refine (pay2_ix2 (lblk4 V c ⟨n, hn⟩) (rblk4 V c ⟨n, hn⟩) (accPrev4 V c ⟨n, hn⟩) p j).trans ?_
        exact congrArg (_ + ·) (point_share V c ⟨n, hn⟩ p j))

/-- At k = 7 the output block is the accumulator's new contents. -/
theorem out_eq_acc (c : Dev nD) (t : Fin cfg4.N) (h0 : ¬t.val % 8 = 0) (h1 : t.val % 8 = 7) :
    outAt4 V c t.val t.isLt = accAt4 V c t.val t.isLt :=
  ((outAt4_C V c t h0 h1).trans
    (outC_eq (F := Ideal) c (grid4.coords t) (ms4_0 t) (hs4_0 t) (ms4_1 t) (hs4_1 t) (ms4_2 t) (hs4_2 t) scM4_0 (Memref.isWhole_whole _) (mt (hcond4_0 t).mp h0) ((hcond4_1 t).mpr h1) (lblk4 V c t) (rblk4 V c t) (accPrev4 V c t))).trans
  ((accAt4_C V c t h0 h1).trans
    (soutC_eq (F := Ideal) c (grid4.coords t) (ms4_0 t) (hs4_0 t) (ms4_1 t) (hs4_1 t) (ms4_2 t) (hs4_2 t) scM4_0 (Memref.isWhole_whole _) (mt (hcond4_0 t).mp h0) ((hcond4_1 t).mpr h1) (lblk4 V c t) (rblk4 V c t) (accPrev4 V c t))).symm

theorem flushed_eq4 (c : Dev nD) (t : Fin cfg4.N) (hf : (cfg4.win 2).flush t = true) :
    (dat4 (F := Ideal) V c).flushed 2 t
      = ((cfg4.win 2).blk t).view.read (Elt Ideal) (mmN (larr4 V c) (rarr4 V c) : S8192x64.Idx → EReal) := by
  have h1 : t.val % 8 = 7 := (flush4_2 t).mp hf
  have h0 : ¬t.val % 8 = 0 := by omega
  have hN : t.val < 64 := lt_of_lt_of_eq t.isLt N_4
  show (cfg4.win 2).cut (grid4.coords t) ((dat4 (F := Ideal) V c).after 2 t) = _
  rw [after4_2, out_eq_acc V c t h0 h1]
  obtain ⟨-, -, -, -, e0, e1⟩ := idx_facts4 t
  funext y
  refine rows_of_shares (larr4 V c) (rarr4 V c) (accAt4 V c t.val t.isLt) (t.val / 8) (by omega)
    (fun p j => ?_) _ (((cfg4.win 2).blk t).view.emb y) ?_ ?_
  · have := acc_eq V c t.val t.isLt p j
    rw [h1] at this
    exact this
  · show win4_2.index t (0 : Fin 2) * 1024 + 1 * (y 0).val = 1024 * (t.val / 8) + (y 0).val; rw [e0]; omega
  · show win4_2.index t (1 : Fin 2) * 64 + 1 * (y 1).val = (y 1).val; rw [e1]; omega

theorem mem_blk4 (t : Fin cfg4.N) (i : S8192x64.Idx) :
    i ∈ ((cfg4.win 2).blk t).view.set ↔ ∀ a : Fin 2, win4_2.index t a * S1024x64.size a ≤ (i a).val ∧ (i a).val < win4_2.index t a * S1024x64.size a + S1024x64.size a := by
  show i ∈ ((View.whole main_v30).slice (win4_2.rect t)).set ↔ _
  rw [View.set_slice_whole, Rect.mem_set_unit]
  exact Iff.rfl

theorem cover4 (i : S8192x64.Idx) : ∃ t : Fin cfg4.N, (cfg4.win 2).flush t = true ∧ i ∈ ((cfg4.win 2).blk t).view.set := by
  have hi0 : (i 0).val < 8192 := (i 0).isLt
  have hi1 : (i 1).val < 64 := (i 1).isLt
  have hN : cfg4.N = 64 := N_4
  have hlt : 8 * ((i 0).val / 1024) + 7 < cfg4.N := by rw [hN]; omega
  refine ⟨⟨8 * ((i 0).val / 1024) + 7, hlt⟩, (flush4_2 _).mpr (by show (8 * ((i 0).val / 1024) + 7) % 8 = 7; omega), ?_⟩
  rw [mem_blk4]
  obtain ⟨-, -, -, -, e0, e1⟩ := idx_facts4 ⟨8 * ((i 0).val / 1024) + 7, hlt⟩
  intro a
  match a with
  | ⟨0, _⟩ =>
    show win4_2.index _ (0 : Fin 2) * 1024 ≤ (i 0).val ∧ (i 0).val < win4_2.index _ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win4_2.index _ (1 : Fin 2) * 64 ≤ (i 1).val ∧ (i 1).val < win4_2.index _ (1 : Fin 2) * 64 + 64
    rw [e1]; omega

theorem arr4_eq (c : Dev nD) :
    (dat4 (F := Ideal) V c).arrAt 2 cfg4.N = (Cert.Spec.mmN (V c main_arg1) (V c main_v24) : S8192x64.Idx → EReal) :=
  (dat4 (F := Ideal) V c).arrAt_eq_of_cover 2 _ (flushed_eq4 V c) cover4

end Cert.KernelIdeal.FrV.R4

end
-- ==== Proof.KI.Val.lean ====
import proofs.«114230_j63153199120588_1_alg».proof.Proof.KI.Run
import proofs.«114230_j63153199120588_1_alg».proof.Proof.KI.Res
import proofs.«114230_j63153199120588_1_alg».proof.Proof.KI.ValHost
import proofs.«114230_j63153199120588_1_alg».proof.Proof.KI.Val0
import proofs.«114230_j63153199120588_1_alg».proof.Proof.KI.ValT1
import proofs.«114230_j63153199120588_1_alg».proof.Proof.KI.ValT2
import proofs.«114230_j63153199120588_1_alg».proof.Proof.KI.ValN3
import proofs.«114230_j63153199120588_1_alg».proof.Proof.KI.ValN4

noncomputable section

namespace Cert.KernelIdeal.FrV

open Idealize.ShloMosaic Idealize.ShloMosaic.TcCoe Idealize.ShloMosaic.StableHlo
open Idealize.SL.Sem
open Idealize.ShloMosaic.Pipeline (Dat)
open Cert.KernelIdeal Cert.KernelIdeal.Gen Cert.KernelIdeal.Fr
open Cert.Spec (mmN mmT)

variable (m : (ℓ : Loc nD τ sig) → Buf (Elt Ideal) ℓ) (ρ : Dev nD → PrngReg) (c : Dev nD)

abbrev A0 : FVec Ideal S8192x64 .f32 := m ((c.tc : Thread nD τ).loc main_arg0)
abbrev A1 : FVec Ideal S8192x8192 .f32 := m ((c.tc : Thread nD τ).loc main_arg1)
abbrev A2 : FVec Ideal S8192 .f32 := m ((c.tc : Thread nD τ).loc main_arg2)
abbrev A3 : FVec Ideal S6 .f32 := m ((c.tc : Thread nD τ).loc main_arg3)
abbrev A4 : FVec Ideal S64x64 .f32 := m ((c.tc : Thread nD τ).loc main_arg4)

theorem kV35_eq (a0 : FVec Ideal S8192x64 .f32) (a1 : FVec Ideal S8192x8192 .f32) (a2 : FVec Ideal S8192 .f32)
    (a3 : FVec Ideal S6 .f32) (a4 : FVec Ideal S64x64 .f32) : kV35 a0 a1 a2 a3 a4 = KRes a0 a1 a2 a3 a4 := by
  unfold kV35 kV29 kV23 kZ2 kZ1 kH kV16 kV10 kV4 kY2 kY1 kX KRes scal rowScale
  rfl

theorem mmN_congr {M K N : Nat} {l l' : (⟨2, ![M, K]⟩ : Shape).Idx → EReal} {r r' : (⟨2, ![K, N]⟩ : Shape).Idx → EReal}
    (hl : l = l') (hr : r = r') : mmN l r = mmN l' r' := by rw [hl, hr]
theorem mmT_congr {K M N : Nat} {l l' : (⟨2, ![K, M]⟩ : Shape).Idx → EReal} {r r' : (⟨2, ![K, N]⟩ : Shape).Idx → EReal}
    (hl : l = l') (hr : r = r') : mmT l r = mmT l' r' := by rw [hl, hr]

theorem W1_v0 : W1 (F := Ideal) m ρ c (Proc.devRef .tc main_v0) = kX (A0 m c) (A4 m c) :=
  (W1_arr m ρ c 2).trans ((arr0_eq (rd (W0 m ρ)) c).trans rfl)
theorem W2_v0 : W2 (F := Ideal) m ρ c (Proc.devRef .tc main_v0) = kX (A0 m c) (A4 m c) :=
  (W2_of m ρ c main_v0 (by decide)).trans (W1_v0 m ρ c)
theorem W2_v4 : W2 (F := Ideal) m ρ c (Proc.devRef .tc main_v4) = kV4 (A0 m c) (A3 m c) (A4 m c) :=
  host1_v4 (W1 m ρ c) _ _ (W1_arg m ρ c main_arg3 (by decide)) (W1_v0 m ρ c)

theorem W3_v5 : W3 (F := Ideal) m ρ c (Proc.devRef .tc main_v5) = kY1 (A0 m c) (A1 m c) (A4 m c) :=
  (W3_arr m ρ c 2).trans ((R1.arr1_eq (rd (W2 m ρ)) c).trans (mmT_congr (W2_arg m ρ c main_arg1 (by decide)) (W2_v0 m ρ c)))
theorem W3_v4 : W3 (F := Ideal) m ρ c (Proc.devRef .tc main_v4) = kV4 (A0 m c) (A3 m c) (A4 m c) :=
  (W3_of_ne m ρ c main_v4 (by decide)).trans (W2_v4 m ρ c)
theorem W4_v5 : W4 (F := Ideal) m ρ c (Proc.devRef .tc main_v5) = kY1 (A0 m c) (A1 m c) (A4 m c) :=
  (W4_of m ρ c main_v5 (by decide)).trans (W3_v5 m ρ c)
theorem W4_v10 : W4 (F := Ideal) m ρ c (Proc.devRef .tc main_v10) = kV10 (A0 m c) (A1 m c) (A3 m c) (A4 m c) :=
  host2_v10 (W3 m ρ c) _ _ _ (W3_arg m ρ c main_arg3 (by decide)) (W3_v5 m ρ c) (W3_v4 m ρ c)

theorem W5_v11 : W5 (F := Ideal) m ρ c (Proc.devRef .tc main_v11) = kY2 (A0 m c) (A1 m c) (A4 m c) :=
  (W5_arr m ρ c 2).trans ((R2.arr2_eq (rd (W4 m ρ)) c).trans (mmT_congr (W4_arg m ρ c main_arg1 (by decide)) (W4_v5 m ρ c)))
theorem W5_v10 : W5 (F := Ideal) m ρ c (Proc.devRef .tc main_v10) = kV10 (A0 m c) (A1 m c) (A3 m c) (A4 m c) :=
  (W5_of_ne m ρ c main_v10 (by decide)).trans (W4_v10 m ρ c)
theorem W6_v19 : W6 (F := Ideal) m ρ c (Proc.devRef .tc main_v19) = kH (A0 m c) (A1 m c) (A2 m c) (A3 m c) (A4 m c) :=
  host3_v19 (W5 m ρ c) _ _ _ _ (W5_arg m ρ c main_arg2 (by decide)) (W5_arg m ρ c main_arg3 (by decide)) (W5_v11 m ρ c) (W5_v10 m ρ c)
theorem W6_v23 : W6 (F := Ideal) m ρ c (Proc.devRef .tc main_v23) = kV23 (A0 m c) (A1 m c) (A2 m c) (A3 m c) (A4 m c) :=
  host3_v23 (W5 m ρ c) _ _ _ _ (W5_arg m ρ c main_arg2 (by decide)) (W5_arg m ρ c main_arg3 (by decide)) (W5_v11 m ρ c) (W5_v10 m ρ c)

theorem W7_v24 : W7 (F := Ideal) m ρ c (Proc.devRef .tc main_v24) = kZ1 (A0 m c) (A1 m c) (A2 m c) (A3 m c) (A4 m c) :=
  (W7_arr m ρ c 2).trans ((R3.arr3_eq (rd (W6 m ρ)) c).trans (mmN_congr (W6_arg m ρ c main_arg1 (by decide)) (W6_v19 m ρ c)))
theorem W7_v23 : W7 (F := Ideal) m ρ c (Proc.devRef .tc main_v23) = kV23 (A0 m c) (A1 m c) (A2 m c) (A3 m c) (A4 m c) :=
  (W7_of_ne m ρ c main_v23 (by decide)).trans (W6_v23 m ρ c)
theorem W8_v24 : W8 (F := Ideal) m ρ c (Proc.devRef .tc main_v24) = kZ1 (A0 m c) (A1 m c) (A2 m c) (A3 m c) (A4 m c) :=
  (W8_of m ρ c main_v24 (by decide)).trans (W7_v24 m ρ c)
theorem W8_v29 : W8 (F := Ideal) m ρ c (Proc.devRef .tc main_v29) = kV29 (A0 m c) (A1 m c) (A2 m c) (A3 m c) (A4 m c) :=
  host4_v29 (W7 m ρ c) _ _ _ (W7_arg m ρ c main_arg3 (by decide)) (W7_v24 m ρ c) (W7_v23 m ρ c)

theorem W9_v30 : W9 (F := Ideal) m ρ c (Proc.devRef .tc main_v30) = kZ2 (A0 m c) (A1 m c) (A2 m c) (A3 m c) (A4 m c) :=
  (W9_arr m ρ c 2).trans ((R4.arr4_eq (rd (W8 m ρ)) c).trans (mmN_congr (W8_arg m ρ c main_arg1 (by decide)) (W8_v24 m ρ c)))
theorem W9_v29 : W9 (F := Ideal) m ρ c (Proc.devRef .tc main_v29) = kV29 (A0 m c) (A1 m c) (A2 m c) (A3 m c) (A4 m c) :=
  (W9_of_ne m ρ c main_v29 (by decide)).trans (W8_v29 m ρ c)
theorem W10_v35 : W10 (F := Ideal) m ρ c (Proc.devRef .tc main_v35) = kV35 (A0 m c) (A1 m c) (A2 m c) (A3 m c) (A4 m c) :=
  host5_v35 (W9 m ρ c) _ _ _ (W9_arg m ρ c main_arg3 (by decide)) (W9_v30 m ρ c) (W9_v29 m ρ c)

theorem out_eq : W10 (F := Ideal) m ρ c (Proc.devRef .tc main_v35)
    = KRes (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (W10_v35 m ρ c).trans (kV35_eq _ _ _ _ _)

end Cert.KernelIdeal.FrV

end
-- ==== Proof.RefDot.lean ====
import proofs.«114230_j63153199120588_1_alg».proof.ReferenceIdeal
import proofs.«114230_j63153199120588_1_alg».proof.Proof.Spec
import proofs.«114230_j63153199120588_1_alg».proof.Proof.LibDot2
import proofs.«114230_j63153199120588_1_alg».proof.Proof.LibDotT
import Idealize.ShloMosaic.Lib.ValueLayout

noncomputable section

namespace Cert.ReferenceIdeal.RefDot

open Idealize.ShloMosaic Idealize.ShloMosaic.ValueIdx Cert.ReferenceIdeal

variable [Cert.ReferenceIdeal.Facts]

theorem pos_dot0 : 0 < dot_S8192x64_S64x64_S8192x64_1_0_0_1_n_n.contr.rank := Nat.one_pos
theorem rank_dot0 : dot_S8192x64_S64x64_S8192x64_1_0_0_1_n_n.contr.rank = 1 := rfl
theorem size_dot0 : dot_S8192x64_S64x64_S8192x64_1_0_0_1_n_n.contr.size ⟨0, pos_dot0⟩ = 64 := rfl

theorem lhs_dot0_0 (i : S8192x64.Idx) (q : dot_S8192x64_S64x64_S8192x64_1_0_0_1_n_n.contr.Idx) :
    (dot_S8192x64_S64x64_S8192x64_1_0_0_1_n_n.lhsIdx i q 0).val = (i 0).val := by
  simp [DotDims.lhsIdx, dot_S8192x64_S64x64_S8192x64_1_0_0_1_n_n]; rfl

theorem lhs_dot0_1 (i : S8192x64.Idx) (q : dot_S8192x64_S64x64_S8192x64_1_0_0_1_n_n.contr.Idx) :
    (dot_S8192x64_S64x64_S8192x64_1_0_0_1_n_n.lhsIdx i q 1).val = (q ⟨0, pos_dot0⟩).val := by
  simp [DotDims.lhsIdx, dot_S8192x64_S64x64_S8192x64_1_0_0_1_n_n]; rfl

theorem rhs_dot0_0 (i : S8192x64.Idx) (q : dot_S8192x64_S64x64_S8192x64_1_0_0_1_n_n.contr.Idx) :
    (dot_S8192x64_S64x64_S8192x64_1_0_0_1_n_n.rhsIdx i q 0).val = (q ⟨0, pos_dot0⟩).val := by
  simp [DotDims.rhsIdx, dot_S8192x64_S64x64_S8192x64_1_0_0_1_n_n]; rfl

theorem rhs_dot0_1 (i : S8192x64.Idx) (q : dot_S8192x64_S64x64_S8192x64_1_0_0_1_n_n.contr.Idx) :
    (dot_S8192x64_S64x64_S8192x64_1_0_0_1_n_n.rhsIdx i q 1).val = (i 1).val := by
  simp [DotDims.rhsIdx, dot_S8192x64_S64x64_S8192x64_1_0_0_1_n_n]; rfl

theorem pos_dotN : 0 < dot_S8192x8192_S8192x64_S8192x64_1_0_0_1_n_n.contr.rank := Nat.one_pos
theorem rank_dotN : dot_S8192x8192_S8192x64_S8192x64_1_0_0_1_n_n.contr.rank = 1 := rfl
theorem size_dotN : dot_S8192x8192_S8192x64_S8192x64_1_0_0_1_n_n.contr.size ⟨0, pos_dotN⟩ = 8192 := rfl

theorem lhs_dotN_0 (i : S8192x64.Idx) (q : dot_S8192x8192_S8192x64_S8192x64_1_0_0_1_n_n.contr.Idx) :
    (dot_S8192x8192_S8192x64_S8192x64_1_0_0_1_n_n.lhsIdx i q 0).val = (i 0).val := by
  simp [DotDims.lhsIdx, dot_S8192x8192_S8192x64_S8192x64_1_0_0_1_n_n]; rfl

theorem lhs_dotN_1 (i : S8192x64.Idx) (q : dot_S8192x8192_S8192x64_S8192x64_1_0_0_1_n_n.contr.Idx) :
    (dot_S8192x8192_S8192x64_S8192x64_1_0_0_1_n_n.lhsIdx i q 1).val = (q ⟨0, pos_dotN⟩).val := by
  simp [DotDims.lhsIdx, dot_S8192x8192_S8192x64_S8192x64_1_0_0_1_n_n]; rfl

theorem rhs_dotN_0 (i : S8192x64.Idx) (q : dot_S8192x8192_S8192x64_S8192x64_1_0_0_1_n_n.contr.Idx) :
    (dot_S8192x8192_S8192x64_S8192x64_1_0_0_1_n_n.rhsIdx i q 0).val = (q ⟨0, pos_dotN⟩).val := by
  simp [DotDims.rhsIdx, dot_S8192x8192_S8192x64_S8192x64_1_0_0_1_n_n]; rfl

theorem rhs_dotN_1 (i : S8192x64.Idx) (q : dot_S8192x8192_S8192x64_S8192x64_1_0_0_1_n_n.contr.Idx) :
    (dot_S8192x8192_S8192x64_S8192x64_1_0_0_1_n_n.rhsIdx i q 1).val = (i 1).val := by
  simp [DotDims.rhsIdx, dot_S8192x8192_S8192x64_S8192x64_1_0_0_1_n_n]; rfl

theorem dot0_eq (l : FVec Ideal S8192x64 .f32) (r : FVec Ideal S64x64 .f32) :
    Host.dotGeneral (F := Ideal) dot_S8192x64_S64x64_S8192x64_1_0_0_1_n_n none l r = Cert.Spec.mmN l r := by
  funext i
  obtain ⟨p, j, rfl⟩ : ∃ (p : Fin 8192) (j : Fin 64), i = ix2 p j := ⟨i 0, i 1, eq_ix2 i⟩
  rw [Cert.Spec.mmN_ix2]
  exact Cert.Lib.DotT.dotGeneral_ix2 dot_S8192x64_S64x64_S8192x64_1_0_0_1_n_n none rank_dot0 size_dot0
    lhs_dot0_0 lhs_dot0_1 rhs_dot0_0 rhs_dot0_1 l r p j

theorem dotN_eq (l : FVec Ideal S8192x8192 .f32) (r : FVec Ideal S8192x64 .f32) :
    Host.dotGeneral (F := Ideal) dot_S8192x8192_S8192x64_S8192x64_1_0_0_1_n_n none l r = Cert.Spec.mmN l r := by
  funext i
  obtain ⟨p, j, rfl⟩ : ∃ (p : Fin 8192) (j : Fin 64), i = ix2 p j := ⟨i 0, i 1, eq_ix2 i⟩
  rw [Cert.Spec.mmN_ix2]
  exact Cert.Lib.DotT.dotGeneral_ix2 dot_S8192x8192_S8192x64_S8192x64_1_0_0_1_n_n none rank_dotN size_dotN
    lhs_dotN_0 lhs_dotN_1 rhs_dotN_0 rhs_dotN_1 l r p j

theorem dotT_eq (l : FVec Ideal S8192x8192 .f32) (r : FVec Ideal S8192x64 .f32) :
    Host.dotGeneral (F := Ideal) dot_S8192x8192_S8192x64_S8192x64_1_0_0_1_n_n none
      (transpose S8192x8192 [1, 0] l Facts₀.transposes_S8192x8192_S8192x8192_1_0) r = Cert.Spec.mmT l r := by
  funext i
  obtain ⟨p, j, rfl⟩ : ∃ (p : Fin 8192) (j : Fin 64), i = ix2 p j := ⟨i 0, i 1, eq_ix2 i⟩
  rw [Cert.Spec.mmT_ix2]
  refine (Cert.Lib.DotT.dotGeneral_ix2 dot_S8192x8192_S8192x64_S8192x64_1_0_0_1_n_n none rank_dotN size_dotN
    lhs_dotN_0 lhs_dotN_1 rhs_dotN_0 rhs_dotN_1 _ r p j).trans ?_
  refine Finset.sum_congr rfl fun a _ => ?_
  rw [transpose_ix2_apply l Facts₀.transposes_S8192x8192_S8192x8192_1_0 p a]

end Cert.ReferenceIdeal.RefDot

end
-- ==== Proof.RefVal.lean ====
import proofs.«114230_j63153199120588_1_alg».proof.Proof.Gen.ReferenceIdeal.Run
import proofs.«114230_j63153199120588_1_alg».proof.Proof.Gen.ReferenceIdeal.Read
import proofs.«114230_j63153199120588_1_alg».proof.Proof.RefDot
import proofs.«114230_j63153199120588_1_alg».proof.Proof.KI.Res

noncomputable section

namespace Cert.ReferenceIdeal.RefVal

open Idealize.ShloMosaic Idealize.ShloMosaic.TcCoe Idealize.SL.Sem
open Cert.ReferenceIdeal

variable [Cert.KernelIdeal.Facts] [Cert.ReferenceIdeal.Facts]

theorem mmN_transpose (l : FVec Ideal S8192x8192 .f32) (r : FVec Ideal S8192x64 .f32) (h : S8192x8192.Transposes [1, 0] S8192x8192) :
    Cert.Spec.mmN (transpose S8192x8192 [1, 0] l h) r = Cert.Spec.mmT l r :=
  (Cert.ReferenceIdeal.RefDot.dotN_eq _ r).symm.trans (Cert.ReferenceIdeal.RefDot.dotT_eq l r)

theorem ref_eq (m : (ℓ : Loc nD τ sig) → Buf (Elt Ideal) ℓ) (c : Dev nD) :
    Cert.ReferenceIdeal.Value.res_main_v37 (F := Ideal) m c
      = Cert.KernelIdeal.FrV.KRes (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.Value.res_main_v37 Cert.KernelIdeal.FrV.KRes
  simp only [Cert.ReferenceIdeal.RefDot.dot0_eq, Cert.ReferenceIdeal.RefDot.dotN_eq]
  congr 12 <;>
    first
    | exact mmN_transpose _ _ _
    | exact (mmN_transpose _ _ _).trans (congrArg (Cert.Spec.mmT _) (mmN_transpose _ _ _))

end Cert.ReferenceIdeal.RefVal

end
-- ==== Proof.lean ====
/-
  With X = features · weight, both programs compute  Y = diag ⊙ (p₃ X + p₄ Θᵀ X + p₅ Θᵀ Θᵀ X)  and return  p₀ Y + p₁ Θ Y + p₂ Θ Θ Y.
  The kernel forms each product block by block, eight partial sums of 1024 terms added in an accumulator; the reference forms
  it as one sum over 8192 terms. A sum over 8192 positions is the sum over its eight consecutive blocks, also on the extended
  reals, so the five products agree entry by entry; the scalings and sums around them are the same operations in the same order.
-/
import proofs.«114230_j63153199120588_1_alg».proof.Defs
import proofs.«114230_j63153199120588_1_alg».proof.Proof.Gen.Kernel
import proofs.«114230_j63153199120588_1_alg».proof.Proof.Gen.KernelIdeal
import proofs.«114230_j63153199120588_1_alg».proof.Proof.Gen.ReferenceIdeal
import proofs.«114230_j63153199120588_1_alg».proof.Proof.Gen.Pre_finite_inputs
import proofs.«114230_j63153199120588_1_alg».proof.Proof.KB.Run
import proofs.«114230_j63153199120588_1_alg».proof.Proof.KI.Run
import proofs.«114230_j63153199120588_1_alg».proof.Proof.KI.Val
import proofs.«114230_j63153199120588_1_alg».proof.Proof.RefVal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_reference : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.FrV.KRes (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Fr.run_all m ρ)
    · exact (h c _ (Cert.KernelIdeal.Fr.mem_uc Cert.KernelIdeal.main_v35 (by decide))).trans (Cert.KernelIdeal.FrV.out_eq m ρ c)
    · exact (h c _ (Cert.KernelIdeal.Fr.mem_uc Cert.KernelIdeal.main_arg0 (by decide))).trans (Cert.KernelIdeal.Fr.W10_arg m ρ c Cert.KernelIdeal.main_arg0 (by decide))
    · exact (h c _ (Cert.KernelIdeal.Fr.mem_uc Cert.KernelIdeal.main_arg1 (by decide))).trans (Cert.KernelIdeal.Fr.W10_arg m ρ c Cert.KernelIdeal.main_arg1 (by decide))
    · exact (h c _ (Cert.KernelIdeal.Fr.mem_uc Cert.KernelIdeal.main_arg2 (by decide))).trans (Cert.KernelIdeal.Fr.W10_arg m ρ c Cert.KernelIdeal.main_arg2 (by decide))
    · exact (h c _ (Cert.KernelIdeal.Fr.mem_uc Cert.KernelIdeal.main_arg3 (by decide))).trans (Cert.KernelIdeal.Fr.W10_arg m ρ c Cert.KernelIdeal.main_arg3 (by decide))
    · exact (h c _ (Cert.KernelIdeal.Fr.mem_uc Cert.KernelIdeal.main_arg4 (by decide))).trans (Cert.KernelIdeal.Fr.W10_arg m ρ c Cert.KernelIdeal.main_arg4 (by decide))
  · refine (θ_run Cert.ReferenceIdeal.defs _ _).mono (fun _ h c => ⟨(h c).1.trans ?_, (h c).2⟩)
      (Cert.ReferenceIdeal.Value.run (F := Ideal) m' ρ')
    beta_reduce
    rw [← (hagree c).1, ← (hagree c).2.1, ← (hagree c).2.2.1, ← (hagree c).2.2.2.1, ← (hagree c).2.2.2.2]
    exact Cert.ReferenceIdeal.RefVal.ref_eq m' c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
